-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)) →
    ∃ (v0 : (c : Dev Cert.KernelIdeal.nD) → Buf (Elt Ideal) ((c.tc : Thread Cert.KernelIdeal.nD Cert.KernelIdeal.τ).loc Cert.KernelIdeal.main_v105)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v105) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v118) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S1600000 : Shape := ⟨1, ![1600000]⟩
abbrev S16x28 : Shape := ⟨2, ![16, 28]⟩
abbrev S16x8x64 : Shape := ⟨3, ![16, 8, 64]⟩
abbrev S64x128 : Shape := ⟨2, ![64, 128]⟩
abbrev S64 : Shape := ⟨1, ![64]⟩
abbrev S48 : Shape := ⟨1, ![48]⟩
abbrev S128x48 : Shape := ⟨2, ![128, 48]⟩
abbrev S128 : Shape := ⟨1, ![128]⟩
abbrev S10x128 : Shape := ⟨2, ![10, 128]⟩
abbrev S10 : Shape := ⟨1, ![10]⟩
abbrev S100000 : Shape := ⟨1, ![100000]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S1600000 : S_.BroadcastsInDim S1600000 (![] : Fin 0 → Fin S1600000.rank)
  reducesTo_S1600000_S_d0 : S1600000.ReducesTo [0] S_
  bcast_S_S16x28 : S_.BroadcastsInDim S16x28 (![] : Fin 0 → Fin S16x28.rank)
  reducesTo_S16x28_S_d0_1 : S16x28.ReducesTo [0, 1] S_
  bcast_S_S16x8x64 : S_.BroadcastsInDim S16x8x64 (![] : Fin 0 → Fin S16x8x64.rank)
  reducesTo_S16x8x64_S_d0_1_2 : S16x8x64.ReducesTo [0, 1, 2] S_
  bcast_S_S64x128 : S_.BroadcastsInDim S64x128 (![] : Fin 0 → Fin S64x128.rank)
  reducesTo_S64x128_S_d0_1 : S64x128.ReducesTo [0, 1] S_
  bcast_S_S64 : S_.BroadcastsInDim S64 (![] : Fin 0 → Fin S64.rank)
  reducesTo_S64_S_d0 : S64.ReducesTo [0] S_
  bcast_S_S48 : S_.BroadcastsInDim S48 (![] : Fin 0 → Fin S48.rank)
  reducesTo_S48_S_d0 : S48.ReducesTo [0] S_
  bcast_S_S128x48 : S_.BroadcastsInDim S128x48 (![] : Fin 0 → Fin S128x48.rank)
  reducesTo_S128x48_S_d0_1 : S128x48.ReducesTo [0, 1] S_
  bcast_S_S128 : S_.BroadcastsInDim S128 (![] : Fin 0 → Fin S128.rank)
  reducesTo_S128_S_d0 : S128.ReducesTo [0] S_
  bcast_S_S10x128 : S_.BroadcastsInDim S10x128 (![] : Fin 0 → Fin S10x128.rank)
  reducesTo_S10x128_S_d0_1 : S10x128.ReducesTo [0, 1] S_
  bcast_S_S10 : S_.BroadcastsInDim S10 (![] : Fin 0 → Fin S10.rank)
  reducesTo_S10_S_d0 : S10.ReducesTo [0] S_

variable [Facts]

def fn_part3 {F : FTy → Type} [FloatOps F] (main_arg11 : FVec F S10 .f32) (main_v48 : IVec S_ 1) (main_v49 : FVec F S10x128 .f32) (main_v50 : FVec F S10x128 .f32) : IVec S_ 1 :=
  let main_v51 : IVec S10x128 1 := cmpf .olt main_v49 main_v50
  let main_c_19 : IVec S_ 1 := constantI S_ 1 1#1
  let main_v52 : IVec S_ 1 := (fun x v => Host.reduce IntOp.andi x v reducesTo_S10x128_S_d0_1 h_S_) main_v51 main_c_19
  let main_v53 : IVec S_ 1 := andi main_v48 main_v52
  let main_v54 : FVec F S10 .f32 := Host.absf main_arg11
  let main_cst_20 : FVec F S_ .f32 := constant S_ .f32 0x7F800000#32
  let main_v55 : FVec F S10 .f32 := broadcastInDim S10 ![] bcast_S_S10 main_cst_20
  let main_v56 : IVec S10 1 := cmpf .olt main_v54 main_v55
  let main_c_21 : IVec S_ 1 := constantI S_ 1 1#1
  let main_v57 : IVec S_ 1 := (fun x v => Host.reduce IntOp.andi x v reducesTo_S10_S_d0 h_S_) main_v56 main_c_21
  let main_v58 : IVec S_ 1 := andi main_v53 main_v57
  main_v58

def fn_part2 {F : FTy → Type} [FloatOps F] (main_arg7 : FVec F S48 .f32) (main_arg8 : FVec F S128x48 .f32) (main_arg9 : FVec F S128 .f32) (main_arg10 : FVec F S10x128 .f32) (main_arg11 : FVec F S10 .f32) (main_v33 : IVec S_ 1) : IVec S_ 1 :=
  let main_v34 : FVec F S48 .f32 := Host.absf main_arg7
  let main_cst_12 : FVec F S_ .f32 := constant S_ .f32 0x7F800000#32
  let main_v35 : FVec F S48 .f32 := broadcastInDim S48 ![] bcast_S_S48 main_cst_12
  let main_v36 : IVec S48 1 := cmpf .olt main_v34 main_v35
  let main_c_13 : IVec S_ 1 := constantI S_ 1 1#1
  let main_v37 : IVec S_ 1 := (fun x v => Host.reduce IntOp.andi x v reducesTo_S48_S_d0 h_S_) main_v36 main_c_13
  let main_v38 : IVec S_ 1 := andi main_v33 main_v37
  let main_v39 : FVec F S128x48 .f32 := Host.absf main_arg8
  let main_cst_14 : FVec F S_ .f32 := constant S_ .f32 0x7F800000#32
  let main_v40 : FVec F S128x48 .f32 := broadcastInDim S128x48 ![] bcast_S_S128x48 main_cst_14
  let main_v41 : IVec S128x48 1 := cmpf .olt main_v39 main_v40
  let main_c_15 : IVec S_ 1 := constantI S_ 1 1#1
  let main_v42 : IVec S_ 1 := (fun x v => Host.reduce IntOp.andi x v reducesTo_S128x48_S_d0_1 h_S_) main_v41 main_c_15
  let main_v43 : IVec S_ 1 := andi main_v38 main_v42
  let main_v44 : FVec F S128 .f32 := Host.absf main_arg9
  let main_cst_16 : FVec F S_ .f32 := constant S_ .f32 0x7F800000#32
  let main_v45 : FVec F S128 .f32 := broadcastInDim S128 ![] bcast_S_S128 main_cst_16
  let main_v46 : IVec S128 1 := cmpf .olt main_v44 main_v45
  let main_c_17 : IVec S_ 1 := constantI S_ 1 1#1
  let main_v47 : IVec S_ 1 := (fun x v => Host.reduce IntOp.andi x v reducesTo_S128_S_d0 h_S_) main_v46 main_c_17
  let main_v48 : IVec S_ 1 := andi main_v43 main_v47
  let main_v49 : FVec F S10x128 .f32 := Host.absf main_arg10
  let main_cst_18 : FVec F S_ .f32 := constant S_ .f32 0x7F800000#32
  let main_v50 : FVec F S10x128 .f32 := broadcastInDim S10x128 ![] bcast_S_S10x128 main_cst_18
  fn_part3 (F := F) main_arg11 main_v48 main_v49 main_v50

def fn_part1 {F : FTy → Type} [FloatOps F] (main_arg4 : FVec F S64x128 .f32) (main_arg5 : FVec F S64 .f32) (main_arg6 : FVec F S48 .f32) (main_arg7 : FVec F S48 .f32) (main_arg8 : FVec F S128x48 .f32) (main_arg9 : FVec F S128 .f32) (main_arg10 : FVec F S10x128 .f32) (main_arg11 : FVec F S10 .f32) (main_v13 : IVec S_ 1) (main_v16 : IVec S16x8x64 1) : IVec S_ 1 :=
  let main_c_5 : IVec S_ 1 := constantI S_ 1 1#1
  let main_v17 : IVec S_ 1 := (fun x v => Host.reduce IntOp.andi x v reducesTo_S16x8x64_S_d0_1_2 h_S_) main_v16 main_c_5
  let main_v18 : IVec S_ 1 := andi main_v13 main_v17
  let main_v19 : FVec F S64x128 .f32 := Host.absf main_arg4
  let main_cst_6 : FVec F S_ .f32 := constant S_ .f32 0x7F800000#32
  let main_v20 : FVec F S64x128 .f32 := broadcastInDim S64x128 ![] bcast_S_S64x128 main_cst_6
  let main_v21 : IVec S64x128 1 := cmpf .olt main_v19 main_v20
  let main_c_7 : IVec S_ 1 := constantI S_ 1 1#1
  let main_v22 : IVec S_ 1 := (fun x v => Host.reduce IntOp.andi x v reducesTo_S64x128_S_d0_1 h_S_) main_v21 main_c_7
  let main_v23 : IVec S_ 1 := andi main_v18 main_v22
  let main_v24 : FVec F S64 .f32 := Host.absf main_arg5
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  let main_v29 : FVec F S48 .f32 := Host.absf main_arg6
  let main_cst_10 : FVec F S_ .f32 := constant S_ .f32 0x7F800000#32
  let main_v30 : FVec F S48 .f32 := broadcastInDim S48 ![] bcast_S_S48 main_cst_10
  let main_v31 : IVec S48 1 := cmpf .olt main_v29 main_v30
  let main_c_11 : IVec S_ 1 := constantI S_ 1 1#1
  let main_v32 : IVec S_ 1 := (fun x v => Host.reduce IntOp.andi x v reducesTo_S48_S_d0 h_S_) main_v31 main_c_11
  let main_v33 : IVec S_ 1 := andi main_v28 main_v32
  fn_part2 (F := F) main_arg7 main_arg8 main_arg9 main_arg10 main_arg11 main_v33

def fn {F : FTy → Type} [FloatOps F] (main_arg0 : FVec F S100000x128 .f32) (main_arg1 : FVec F S1600000 .f32) (main_arg2 : FVec F S16x28 .f32) (main_arg3 : FVec F S16x8x64 .f32) (main_arg4 : FVec F S64x128 .f32) (main_arg5 : FVec F S64 .f32) (main_arg6 : FVec F S48 .f32) (main_arg7 : FVec F S48 .f32) (main_arg8 : FVec F S128x48 .f32) (main_arg9 : FVec F S128 .f32) (main_arg10 : FVec F S10x128 .f32) (main_arg11 : FVec F S10 .f32) (main_arg12 : IVec S100000 32) (main_arg13 : IVec S1600000 32) (main_arg14 : IVec S1600000 32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S1600000 .f32 := Host.absf main_arg1
  let main_cst_0 : FVec F S_ .f32 := constant S_ .f32 0x7F800000#32
  let main_v5 : FVec F S1600000 .f32 := broadcastInDim S1600000 ![] bcast_S_S1600000 main_cst_0
  let main_v6 : IVec S1600000 1 := cmpf .olt main_v4 main_v5
  let main_c_1 : IVec S_ 1 := constantI S_ 1 1#1
  let main_v7 : IVec S_ 1 := (fun x v => Host.reduce IntOp.andi x v reducesTo_S1600000_S_d0 h_S_) main_v6 main_c_1
  let main_v8 : IVec S_ 1 := andi main_v3 main_v7
  let main_v9 : FVec F S16x28 .f32 := Host.absf main_arg2
  let main_cst_2 : FVec F S_ .f32 := constant S_ .f32 0x7F800000#32
  let main_v10 : FVec F S16x28 .f32 := broadcastInDim S16x28 ![] bcast_S_S16x28 main_cst_2
  let main_v11 : IVec S16x28 1 := cmpf .olt main_v9 main_v10
  let main_c_3 : IVec S_ 1 := constantI S_ 1 1#1
  let main_v12 : IVec S_ 1 := (fun x v => Host.reduce IntOp.andi x v reducesTo_S16x28_S_d0_1 h_S_) main_v11 main_c_3
  let main_v13 : IVec S_ 1 := andi main_v8 main_v12
  let main_v14 : FVec F S16x8x64 .f32 := Host.absf main_arg3
  let main_cst_4 : FVec F S_ .f32 := constant S_ .f32 0x7F800000#32
  let main_v15 : FVec F S16x8x64 .f32 := broadcastInDim S16x8x64 ![] bcast_S_S16x8x64 main_cst_4
  let main_v16 : IVec S16x8x64 1 := cmpf .olt main_v14 main_v15
  fn_part1 (F := F) main_arg4 main_arg5 main_arg6 main_arg7 main_arg8 main_arg9 main_arg10 main_arg11 main_v13 main_v16
-- ==== Kernel.lean ====
abbrev S100000x128 : Shape := ⟨2, ![100000, 128]⟩
abbrev S1600000 : Shape := ⟨1, ![1600000]⟩
abbrev S16x28 : Shape := ⟨2, ![16, 28]⟩
abbrev S16x8x64 : Shape := ⟨3, ![16, 8, 64]⟩
abbrev S64x128 : Shape := ⟨2, ![64, 128]⟩
abbrev S64 : Shape := ⟨1, ![64]⟩
abbrev S48 : Shape := ⟨1, ![48]⟩
abbrev S128x48 : Shape := ⟨2, ![128, 48]⟩
abbrev S128 : Shape := ⟨1, ![128]⟩
abbrev S10x128 : Shape := ⟨2, ![10, 128]⟩
abbrev S10 : Shape := ⟨1, ![10]⟩
abbrev S100000 : Shape := ⟨1, ![100000]⟩
abbrev S28 : Shape := ⟨1, ![28]⟩
abbrev S_ : Shape := ⟨0, ![]⟩
abbrev S16x8x8 : Shape := ⟨3, ![16, 8, 8]⟩
abbrev S28x1 : Shape := ⟨2, ![28, 1]⟩
abbrev S28x2 : Shape := ⟨2, ![28, 2]⟩
abbrev S128x64 : Shape := ⟨2, ![128, 64]⟩
abbrev S1x64 : Shape := ⟨2, ![1, 64]⟩
abbrev S100000x64 : Shape := ⟨2, ![100000, 64]⟩
abbrev S2000x128 : Shape := ⟨2, ![2000, 128]⟩
abbrev S2000x64 : Shape := ⟨2, ![2000, 64]⟩
abbrev S1600000x1 : Shape := ⟨2, ![1600000, 1]⟩
abbrev S1600000x64 : Shape := ⟨2, ![1600000, 64]⟩
abbrev S512 : Shape := ⟨1, ![512]⟩
abbrev S100000x1 : Shape := ⟨2, ![100000, 1]⟩
abbrev S512x1 : Shape := ⟨2, ![512, 1]⟩
abbrev S512x128 : Shape := ⟨2, ![512, 128]⟩
abbrev S2000x1 : Shape := ⟨2, ![2000, 1]⟩
abbrev S2000x512 : Shape := ⟨2, ![2000, 512]⟩
abbrev S512x16x8 : Shape := ⟨3, ![512, 16, 8]⟩
abbrev S512x16 : Shape := ⟨2, ![512, 16]⟩
abbrev S512x48 : Shape := ⟨2, ![512, 48]⟩
abbrev S1x48 : Shape := ⟨2, ![1, 48]⟩
abbrev S48x128 : Shape := ⟨2, ![48, 128]⟩
abbrev S1x128 : Shape := ⟨2, ![1, 128]⟩
abbrev S128x10 : Shape := ⟨2, ![128, 10]⟩
abbrev S512x10 : Shape := ⟨2, ![512, 10]⟩
abbrev S1x10 : Shape := ⟨2, ![1, 10]⟩

abbrev nBuf : Space → Nat
  | .hbm => 184
  | .vmem => 33
  | .smem => 0
  | _ => 0

abbrev hbmTy0_0 (i : Nat) : BufTy := match i % 128 with
  | 0 => ⟨S100000x128, .f32⟩
  | 1 => ⟨S1600000, .f32⟩
  | 2 => ⟨S16x28, .f32⟩
  | 3 => ⟨S16x8x64, .f32⟩
  | 4 => ⟨S64x128, .f32⟩
  | 5 => ⟨S64, .f32⟩
  | 6 => ⟨S48, .f32⟩
  | 7 => ⟨S48, .f32⟩
  | 8 => ⟨S128x48, .f32⟩
  | 9 => ⟨S128, .f32⟩
  | 10 => ⟨S10x128, .f32⟩
  | 11 => ⟨S10, .f32⟩
  | 12 => ⟨S100000, .i32⟩
  | 13 => ⟨S1600000, .i32⟩
  | 14 => ⟨S1600000, .i32⟩
  | 15 => ⟨S28, .i32⟩
  | 16 => ⟨S28, .i1⟩
  | 17 => ⟨S28, .i32⟩
  | 18 => ⟨S28, .i1⟩
  | 19 => ⟨S_, .f32⟩
  | 20 => ⟨S16x8x8, .f32⟩
  | 21 => ⟨S_, .f32⟩
  | 22 => ⟨S16x28, .f32⟩
  | 23 => ⟨S16x28, .f32⟩
  | 24 => ⟨S_, .i32⟩
  | 25 => ⟨S28, .i32⟩
  | 26 => ⟨S28, .i32⟩
  | 27 => ⟨S28, .i32⟩
  | 28 => ⟨S_, .i32⟩
  | 29 => ⟨S28, .i32⟩
  | 30 => ⟨S28, .i32⟩
  | 31 => ⟨S28, .i32⟩
  | 32 => ⟨S28x1, .i32⟩
  | 33 => ⟨S28x1, .i32⟩
  | 34 => ⟨S28x2, .i32⟩
  | 35 => ⟨S16x8x8, .f32⟩
  | 36 => ⟨S16x8x8, .f32⟩
  | 37 => ⟨S16x8x8, .f32⟩
  | 38 => ⟨S128x64, .f32⟩
  | 39 => ⟨S1x64, .f32⟩
  | 40 => ⟨S128x64, .f32⟩
  | 41 => ⟨S64x128, .f32⟩
  | 42 => ⟨S100000x64, .f32⟩
  | 43 => ⟨S100000x128, .f32⟩
  | 44 => ⟨S16x8x64, .f32⟩
  | 45 => ⟨S128x64, .f32⟩
  | 46 => ⟨S64x128, .f32⟩
  | 47 => ⟨S16x8x64, .f32⟩
  | 48 => ⟨S128x64, .f32⟩
  | 49 => ⟨S64x128, .f32⟩
  | 50 => ⟨S1600000x1, .f32⟩
  | 51 => ⟨S_, .i32⟩
  | 52 => ⟨S1600000, .i32⟩
  | 53 => ⟨S1600000, .i1⟩
  | 54 => ⟨S_, .i32⟩
  | 55 => ⟨S1600000, .i32⟩
  | 56 => ⟨S1600000, .i32⟩
  | 57 => ⟨S1600000, .i32⟩
  | 58 => ⟨S1600000x1, .i32⟩
  | 59 => ⟨S1600000x64, .f32⟩
  | 60 => ⟨S1600000x64, .f32⟩
  | 61 => ⟨S1600000x64, .f32⟩
  | 62 => ⟨S_, .f32⟩
  | 63 => ⟨S100000x64, .f32⟩
  | 64 => ⟨S1600000x1, .i32⟩
  | 65 => ⟨S100000x64, .f32⟩
  | 66 => ⟨S1600000x1, .f32⟩
  | 67 => ⟨S_, .i32⟩
  | 68 => ⟨S1600000, .i32⟩
  | 69 => ⟨S1600000, .i1⟩
  | 70 => ⟨S_, .i32⟩
  | 71 => ⟨S1600000, .i32⟩
  | 72 => ⟨S1600000, .i32⟩
  | 73 => ⟨S1600000, .i32⟩
  | 74 => ⟨S1600000x1, .i32⟩
  | 75 => ⟨S1600000x64, .f32⟩
  | 76 => ⟨S1600000x64, .f32⟩
  | 77 => ⟨S1600000x64, .f32⟩
  | 78 => ⟨S_, .f32⟩
  | 79 => ⟨S100000x64, .f32⟩
  | 80 => ⟨S1600000x1, .i32⟩
  | 81 => ⟨S100000x64, .f32⟩
  | 82 => ⟨S_, .f32⟩
  | 83 => ⟨S100000, .f32⟩
  | 84 => ⟨S_, .f32⟩
  | 85 => ⟨S512, .f32⟩
  | 86 => ⟨S100000x1, .i32⟩
  | 87 => ⟨S512, .f32⟩
  | 88 => ⟨S_, .f32⟩
  | 89 => ⟨S512, .f32⟩
  | 90 => ⟨S512, .f32⟩
  | 91 => ⟨S512x1, .f32⟩
  | 92 => ⟨S100000x1, .i32⟩
  | 93 => ⟨S512x128, .f32⟩
  | 94 => ⟨S512x128, .f32⟩
  | 95 => ⟨S512x128, .f32⟩
  | 96 => ⟨S512x16x8, .f32⟩
  | 97 => ⟨S_, .f32⟩
  | 98 => ⟨S512x16, .f32⟩
  | 99 => ⟨S512x16, .f32⟩
  | 100 => ⟨S512x16, .f32⟩
  | 101 => ⟨S512x16x8, .f32⟩
  | 102 => ⟨S_, .f32⟩
  | 103 => ⟨S512x16, .f32⟩
  | 104 => ⟨S512x16, .f32⟩
  | 105 => ⟨S512x16, .f32⟩
  | 106 => ⟨S512x16x8, .f32⟩
  | 107 => ⟨S_, .f32⟩
  | 108 => ⟨S512x16, .f32⟩
  | 109 => ⟨S512x16, .f32⟩
  | 110 => ⟨S512x16, .f32⟩
  | 111 => ⟨S512x48, .f32⟩
  | 112 => ⟨S_, .f32⟩
  | 113 => ⟨S48, .f32⟩
  | 114 => ⟨S_, .f32⟩
  | 115 => ⟨S48, .f32⟩
  | 116 => ⟨S48, .f32⟩
  | 117 => ⟨S_, .i32⟩
  | 118 => ⟨S_, .f32⟩
  | 119 => ⟨S48, .f32⟩
  | 120 => ⟨S1x48, .f32⟩
  | 121 => ⟨S_, .f32⟩
  | 122 => ⟨S1x48, .f32⟩
  | 123 => ⟨S1x48, .f32⟩
  | 124 => ⟨S512x48, .f32⟩
  | 125 => ⟨S512x48, .f32⟩
  | 126 => ⟨S512x48, .f32⟩
  | 127 => ⟨S_, .f32⟩
  | _ => ⟨S100000x128, .f32⟩

abbrev hbmTy0_1 (i : Nat) : BufTy := match i % 128 with
  | 0 => ⟨S_, .f32⟩
  | 1 => ⟨S_, .f32⟩
  | 2 => ⟨S_, .f32⟩
  | 3 => ⟨S48, .f32⟩
  | 4 => ⟨S48, .f32⟩
  | 5 => ⟨S48, .f32⟩
  | 6 => ⟨S_, .f32⟩
  | 7 => ⟨S_, .i1⟩
  | 8 => ⟨S_, .f32⟩
  | 9 => ⟨S_, .f32⟩
  | 10 => ⟨S48, .f32⟩
  | 11 => ⟨S48, .f32⟩
  | 12 => ⟨S1x48, .f32⟩
  | 13 => ⟨S512x48, .f32⟩
  | 14 => ⟨S512x48, .f32⟩
  | 15 => ⟨S1x48, .f32⟩
  | 16 => ⟨S512x48, .f32⟩
  | 17 => ⟨S512x48, .f32⟩
  | 18 => ⟨S_, .f32⟩
  | 19 => ⟨S48, .f32⟩
  | 20 => ⟨S48, .f32⟩
  | 21 => ⟨S48, .f32⟩
  | 22 => ⟨S1x48, .f32⟩
  | 23 => ⟨S512x48, .f32⟩
  | 24 => ⟨S512x48, .f32⟩
  | 25 => ⟨S1x48, .f32⟩
  | 26 => ⟨S512x48, .f32⟩
  | 27 => ⟨S512x48, .f32⟩
  | 28 => ⟨S48x128, .f32⟩
  | 29 => ⟨S512x128, .f32⟩
  | 30 => ⟨S1x128, .f32⟩
  | 31 => ⟨S512x128, .f32⟩
  | 32 => ⟨S512x128, .f32⟩
  | 33 => ⟨S_, .f32⟩
  | 34 => ⟨S512x128, .f32⟩
  | 35 => ⟨S512x128, .f32⟩
  | 36 => ⟨S128x10, .f32⟩
  | 37 => ⟨S512x10, .f32⟩
  | 38 => ⟨S1x10, .f32⟩
  | 39 => ⟨S512x10, .f32⟩
  | 40 => ⟨S512x10, .f32⟩
  | 41 => ⟨S_, .f32⟩
  | 42 => ⟨S512, .f32⟩
  | 43 => ⟨S_, .f32⟩
  | 44 => ⟨S512, .f32⟩
  | 45 => ⟨S512, .f32⟩
  | 46 => ⟨S512x1, .f32⟩
  | 47 => ⟨S512x10, .f32⟩
  | 48 => ⟨S512x10, .f32⟩
  | 49 => ⟨S512x10, .f32⟩
  | 50 => ⟨S_, .f32⟩
  | 51 => ⟨S512, .f32⟩
  | 52 => ⟨S512x1, .f32⟩
  | 53 => ⟨S512x1, .f32⟩
  | 54 => ⟨S512x10, .f32⟩
  | 55 => ⟨S512x10, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | .local _ .vmem, ⟨0, _⟩ => ⟨S2000x128, .f32⟩
  | .local _ .vmem, ⟨1, _⟩ => ⟨S2000x128, .f32⟩
  | .local _ .vmem, ⟨2, _⟩ => ⟨S128x64, .f32⟩
  | .local _ .vmem, ⟨3, _⟩ => ⟨S1x64, .f32⟩
  | .local _ .vmem, ⟨4, _⟩ => ⟨S64x128, .f32⟩
  | .local _ .vmem, ⟨5, _⟩ => ⟨S2000x64, .f32⟩
  | .local _ .vmem, ⟨6, _⟩ => ⟨S2000x64, .f32⟩
  | .local _ .vmem, ⟨7, _⟩ => ⟨S2000x128, .f32⟩
  | .local _ .vmem, ⟨8, _⟩ => ⟨S2000x128, .f32⟩
  | .local _ .vmem, ⟨9, _⟩ => ⟨S2000x64, .f32⟩
  | .local _ .vmem, ⟨10, _⟩ => ⟨S2000x64, .f32⟩
  | .local _ .vmem, ⟨11, _⟩ => ⟨S64x128, .f32⟩
  | .local _ .vmem, ⟨12, _⟩ => ⟨S2000x128, .f32⟩
  | .local _ .vmem, ⟨13, _⟩ => ⟨S2000x128, .f32⟩
  | .local _ .vmem, ⟨14, _⟩ => ⟨S2000x1, .i32⟩
  | .local _ .vmem, ⟨15, _⟩ => ⟨S2000x1, .i32⟩
  | .local _ .vmem, ⟨16, _⟩ => ⟨S512x128, .f32⟩
  | .local _ .vmem, ⟨17, _⟩ => ⟨S2000x64, .f32⟩
  | .local _ .vmem, ⟨18, _⟩ => ⟨S2000x64, .f32⟩
  | .local _ .vmem, ⟨19, _⟩ => ⟨S64x128, .f32⟩
  | .local _ .vmem, ⟨20, _⟩ => ⟨S2000x128, .f32⟩
  | .local _ .vmem, ⟨21, _⟩ => ⟨S2000x128, .f32⟩
  | .local _ .vmem, ⟨22, _⟩ => ⟨S2000x1, .i32⟩
  | .local _ .vmem, ⟨23, _⟩ => ⟨S2000x1, .i32⟩
  | .local _ .vmem, ⟨24, _⟩ => ⟨S512x128, .f32⟩
  | .local _ .vmem, ⟨25, _⟩ => ⟨S2000x64, .f32⟩
  | .local _ .vmem, ⟨26, _⟩ => ⟨S2000x64, .f32⟩
  | .local _ .vmem, ⟨27, _⟩ => ⟨S64x128, .f32⟩
  | .local _ .vmem, ⟨28, _⟩ => ⟨S2000x128, .f32⟩
  | .local _ .vmem, ⟨29, _⟩ => ⟨S2000x128, .f32⟩
  | .local _ .vmem, ⟨30, _⟩ => ⟨S2000x1, .i32⟩
  | .local _ .vmem, ⟨31, _⟩ => ⟨S2000x1, .i32⟩
  | .local _ .vmem, ⟨32, _⟩ => ⟨S512x128, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | _, _ => false

abbrev semScoped : Fin 0 → Bool
  | ⟨_, h⟩ => absurd h (Nat.not_lt_zero _)

abbrev dmaSemScoped : Fin 33 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | _ => false

abbrev sig : RefSig :=
  ofTc nBuf bufTy 0 33 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_c : Ref sig .tc := ⟨.hbm, 15, rfl⟩
abbrev main_c_0 : Ref sig .tc := ⟨.hbm, 16, rfl⟩
abbrev main_c_1 : Ref sig .tc := ⟨.hbm, 17, rfl⟩
abbrev main_c_2 : Ref sig .tc := ⟨.hbm, 18, rfl⟩
abbrev main_cst : Ref sig .tc := ⟨.hbm, 19, rfl⟩
abbrev main_v0 : Ref sig .tc := ⟨.hbm, 20, rfl⟩
abbrev main_call0_cst : Ref sig .tc := ⟨.hbm, 21, rfl⟩
abbrev main_call0_v0 : Ref sig .tc := ⟨.hbm, 22, rfl⟩
abbrev main_v1 : Ref sig .tc := ⟨.hbm, 23, rfl⟩
abbrev main_c_3 : Ref sig .tc := ⟨.hbm, 24, rfl⟩
abbrev main_v2 : Ref sig .tc := ⟨.hbm, 25, rfl⟩
abbrev main_v3 : Ref sig .tc := ⟨.hbm, 26, rfl⟩
abbrev main_v4 : Ref sig .tc := ⟨.hbm, 27, rfl⟩
abbrev main_c_4 : Ref sig .tc := ⟨.hbm, 28, rfl⟩
abbrev main_v5 : Ref sig .tc := ⟨.hbm, 29, rfl⟩
abbrev main_v6 : Ref sig .tc := ⟨.hbm, 30, rfl⟩
abbrev main_v7 : Ref sig .tc := ⟨.hbm, 31, rfl⟩
abbrev main_v8 : Ref sig .tc := ⟨.hbm, 32, rfl⟩
abbrev main_v9 : Ref sig .tc := ⟨.hbm, 33, rfl⟩
abbrev main_v10 : Ref sig .tc := ⟨.hbm, 34, rfl⟩
abbrev main_v11 : Ref sig .tc := ⟨.hbm, 35, rfl⟩
abbrev main_v12 : Ref sig .tc := ⟨.hbm, 36, rfl⟩
abbrev main_v13 : Ref sig .tc := ⟨.hbm, 37, rfl⟩
abbrev main_v14 : Ref sig .tc := ⟨.hbm, 38, rfl⟩
abbrev main_v15 : Ref sig .tc := ⟨.hbm, 39, rfl⟩
abbrev main_v16 : Ref sig .tc := ⟨.hbm, 40, rfl⟩
abbrev main_v17 : Ref sig .tc := ⟨.hbm, 41, rfl⟩
abbrev main_v18_0 : Ref sig .tc := ⟨.hbm, 42, rfl⟩
abbrev main_v18_1 : Ref sig .tc := ⟨.hbm, 43, rfl⟩
abbrev main_v19 : Ref sig .tc := ⟨.hbm, 44, rfl⟩
abbrev main_v20 : Ref sig .tc := ⟨.hbm, 45, rfl⟩
abbrev main_v21 : Ref sig .tc := ⟨.hbm, 46, rfl⟩
abbrev main_v22 : Ref sig .tc := ⟨.hbm, 47, rfl⟩
abbrev main_v23 : Ref sig .tc := ⟨.hbm, 48, rfl⟩
abbrev main_v24 : Ref sig .tc := ⟨.hbm, 49, rfl⟩
abbrev main_v25 : Ref sig .tc := ⟨.hbm, 50, rfl⟩
abbrev main_c_5 : Ref sig .tc := ⟨.hbm, 51, rfl⟩
abbrev main_v26 : Ref sig .tc := ⟨.hbm, 52, rfl⟩
abbrev main_v27 : Ref sig .tc := ⟨.hbm, 53, rfl⟩
abbrev main_c_6 : Ref sig .tc := ⟨.hbm, 54, rfl⟩
abbrev main_v28 : Ref sig .tc := ⟨.hbm, 55, rfl⟩
abbrev main_v29 : Ref sig .tc := ⟨.hbm, 56, rfl⟩
abbrev main_v30 : Ref sig .tc := ⟨.hbm, 57, rfl⟩
abbrev main_v31 : Ref sig .tc := ⟨.hbm, 58, rfl⟩
abbrev main_v32 : Ref sig .tc := ⟨.hbm, 59, rfl⟩
abbrev main_v33 : Ref sig .tc := ⟨.hbm, 60, rfl⟩
abbrev main_v34 : Ref sig .tc := ⟨.hbm, 61, rfl⟩
abbrev main_cst_7 : Ref sig .tc := ⟨.hbm, 62, rfl⟩
abbrev main_v35 : Ref sig .tc := ⟨.hbm, 63, rfl⟩
abbrev main_v36 : Ref sig .tc := ⟨.hbm, 64, rfl⟩
abbrev main_v37 : Ref sig .tc := ⟨.hbm, 65, rfl⟩
abbrev main_v38 : Ref sig .tc := ⟨.hbm, 66, rfl⟩
abbrev main_c_8 : Ref sig .tc := ⟨.hbm, 67, rfl⟩
abbrev main_v39 : Ref sig .tc := ⟨.hbm, 68, rfl⟩
abbrev main_v40 : Ref sig .tc := ⟨.hbm, 69, rfl⟩
abbrev main_c_9 : Ref sig .tc := ⟨.hbm, 70, rfl⟩
abbrev main_v41 : Ref sig .tc := ⟨.hbm, 71, rfl⟩
abbrev main_v42 : Ref sig .tc := ⟨.hbm, 72, rfl⟩
abbrev main_v43 : Ref sig .tc := ⟨.hbm, 73, rfl⟩
abbrev main_v44 : Ref sig .tc := ⟨.hbm, 74, rfl⟩
abbrev main_v45 : Ref sig .tc := ⟨.hbm, 75, rfl⟩
abbrev main_v46 : Ref sig .tc := ⟨.hbm, 76, rfl⟩
abbrev main_v47 : Ref sig .tc := ⟨.hbm, 77, rfl⟩
abbrev main_cst_10 : Ref sig .tc := ⟨.hbm, 78, rfl⟩
abbrev main_v48 : Ref sig .tc := ⟨.hbm, 79, rfl⟩
abbrev main_v49 : Ref sig .tc := ⟨.hbm, 80, rfl⟩
abbrev main_v50 : Ref sig .tc := ⟨.hbm, 81, rfl⟩
abbrev main_cst_11 : Ref sig .tc := ⟨.hbm, 82, rfl⟩
abbrev main_v51 : Ref sig .tc := ⟨.hbm, 83, rfl⟩
abbrev main_cst_12 : Ref sig .tc := ⟨.hbm, 84, rfl⟩
abbrev main_v52 : Ref sig .tc := ⟨.hbm, 85, rfl⟩
abbrev main_v53 : Ref sig .tc := ⟨.hbm, 86, rfl⟩
abbrev main_v54 : Ref sig .tc := ⟨.hbm, 87, rfl⟩
abbrev main_cst_13 : Ref sig .tc := ⟨.hbm, 88, rfl⟩
abbrev main_v55 : Ref sig .tc := ⟨.hbm, 89, rfl⟩
abbrev main_v56 : Ref sig .tc := ⟨.hbm, 90, rfl⟩
abbrev main_v57 : Ref sig .tc := ⟨.hbm, 91, rfl⟩
abbrev main_v58 : Ref sig .tc := ⟨.hbm, 92, rfl⟩
abbrev main_v59 : Ref sig .tc := ⟨.hbm, 93, rfl⟩
abbrev main_v60 : Ref sig .tc := ⟨.hbm, 94, rfl⟩
abbrev main_v61 : Ref sig .tc := ⟨.hbm, 95, rfl⟩
abbrev main_v62 : Ref sig .tc := ⟨.hbm, 96, rfl⟩
abbrev main_cst_14 : Ref sig .tc := ⟨.hbm, 97, rfl⟩
abbrev main_v63 : Ref sig .tc := ⟨.hbm, 98, rfl⟩
abbrev main_v64 : Ref sig .tc := ⟨.hbm, 99, rfl⟩
abbrev main_v65 : Ref sig .tc := ⟨.hbm, 100, rfl⟩
abbrev main_v66 : Ref sig .tc := ⟨.hbm, 101, rfl⟩
abbrev main_cst_15 : Ref sig .tc := ⟨.hbm, 102, rfl⟩
abbrev main_v67 : Ref sig .tc := ⟨.hbm, 103, rfl⟩
abbrev main_v68 : Ref sig .tc := ⟨.hbm, 104, rfl⟩
abbrev main_v69 : Ref sig .tc := ⟨.hbm, 105, rfl⟩
abbrev main_v70 : Ref sig .tc := ⟨.hbm, 106, rfl⟩
abbrev main_cst_16 : Ref sig .tc := ⟨.hbm, 107, rfl⟩
abbrev main_v71 : Ref sig .tc := ⟨.hbm, 108, rfl⟩
abbrev main_v72 : Ref sig .tc := ⟨.hbm, 109, rfl⟩
abbrev main_v73 : Ref sig .tc := ⟨.hbm, 110, rfl⟩
abbrev main_v74 : Ref sig .tc := ⟨.hbm, 111, rfl⟩
abbrev main_cst_17 : Ref sig .tc := ⟨.hbm, 112, rfl⟩
abbrev main_v75 : Ref sig .tc := ⟨.hbm, 113, rfl⟩
abbrev main_cst_18 : Ref sig .tc := ⟨.hbm, 114, rfl⟩
abbrev main_v76 : Ref sig .tc := ⟨.hbm, 115, rfl⟩
abbrev main_v77 : Ref sig .tc := ⟨.hbm, 116, rfl⟩
abbrev main_c_19 : Ref sig .tc := ⟨.hbm, 117, rfl⟩
abbrev main_call1_cst : Ref sig .tc := ⟨.hbm, 118, rfl⟩
abbrev main_call1_v0 : Ref sig .tc := ⟨.hbm, 119, rfl⟩
abbrev main_call1_v1 : Ref sig .tc := ⟨.hbm, 120, rfl⟩
abbrev main_call1_cst_0 : Ref sig .tc := ⟨.hbm, 121, rfl⟩
abbrev main_call1_v2 : Ref sig .tc := ⟨.hbm, 122, rfl⟩
abbrev main_call1_v3 : Ref sig .tc := ⟨.hbm, 123, rfl⟩
abbrev main_call1_v4 : Ref sig .tc := ⟨.hbm, 124, rfl⟩
abbrev main_call1_v5 : Ref sig .tc := ⟨.hbm, 125, rfl⟩
abbrev main_call1_v6 : Ref sig .tc := ⟨.hbm, 126, rfl⟩
abbrev main_call1_v7 : Ref sig .tc := ⟨.hbm, 127, rfl⟩
abbrev main_call1_cst_1 : Ref sig .tc := ⟨.hbm, 128, rfl⟩
abbrev main_call1_v8 : Ref sig .tc := ⟨.hbm, 129, rfl⟩
abbrev main_call1_cst_2 : Ref sig .tc := ⟨.hbm, 130, rfl⟩
abbrev main_call1_v9 : Ref sig .tc := ⟨.hbm, 131, rfl⟩
abbrev main_call1_v10 : Ref sig .tc := ⟨.hbm, 132, rfl⟩
abbrev main_call1_v11 : Ref sig .tc := ⟨.hbm, 133, rfl⟩
abbrev main_call1_cst_3 : Ref sig .tc := ⟨.hbm, 134, rfl⟩
abbrev main_call1_v12 : Ref sig .tc := ⟨.hbm, 135, rfl⟩
abbrev main_call1_cst_4 : Ref sig .tc := ⟨.hbm, 136, rfl⟩
abbrev main_call1_call0_v0 : Ref sig .tc := ⟨.hbm, 137, rfl⟩
abbrev main_call1_call0_v1 : Ref sig .tc := ⟨.hbm, 138, rfl⟩
abbrev main_v78 : Ref sig .tc := ⟨.hbm, 139, rfl⟩
abbrev main_v79 : Ref sig .tc := ⟨.hbm, 140, rfl⟩
abbrev main_v80 : Ref sig .tc := ⟨.hbm, 141, rfl⟩
abbrev main_v81 : Ref sig .tc := ⟨.hbm, 142, rfl⟩
abbrev main_v82 : Ref sig .tc := ⟨.hbm, 143, rfl⟩
abbrev main_v83 : Ref sig .tc := ⟨.hbm, 144, rfl⟩
abbrev main_v84 : Ref sig .tc := ⟨.hbm, 145, rfl⟩
abbrev main_cst_20 : Ref sig .tc := ⟨.hbm, 146, rfl⟩
abbrev main_v85 : Ref sig .tc := ⟨.hbm, 147, rfl⟩
abbrev main_v86 : Ref sig .tc := ⟨.hbm, 148, rfl⟩
abbrev main_v87 : Ref sig .tc := ⟨.hbm, 149, rfl⟩
abbrev main_v88 : Ref sig .tc := ⟨.hbm, 150, rfl⟩
abbrev main_v89 : Ref sig .tc := ⟨.hbm, 151, rfl⟩
abbrev main_v90 : Ref sig .tc := ⟨.hbm, 152, rfl⟩
abbrev main_v91 : Ref sig .tc := ⟨.hbm, 153, rfl⟩
abbrev main_v92 : Ref sig .tc := ⟨.hbm, 154, rfl⟩
abbrev main_v93 : Ref sig .tc := ⟨.hbm, 155, rfl⟩
abbrev main_v94 : Ref sig .tc := ⟨.hbm, 156, rfl⟩
abbrev main_v95 : Ref sig .tc := ⟨.hbm, 157, rfl⟩
abbrev main_v96 : Ref sig .tc := ⟨.hbm, 158, rfl⟩
abbrev main_v97 : Ref sig .tc := ⟨.hbm, 159, rfl⟩
abbrev main_v98 : Ref sig .tc := ⟨.hbm, 160, rfl⟩
abbrev main_call2_cst : Ref sig .tc := ⟨.hbm, 161, rfl⟩
abbrev main_call2_v0 : Ref sig .tc := ⟨.hbm, 162, rfl⟩
abbrev main_v99 : Ref sig .tc := ⟨.hbm, 163, rfl⟩
abbrev main_v100 : Ref sig .tc := ⟨.hbm, 164, rfl⟩
abbrev main_v101 : Ref sig .tc := ⟨.hbm, 165, rfl⟩
abbrev main_v102 : Ref sig .tc := ⟨.hbm, 166, rfl⟩
abbrev main_v103 : Ref sig .tc := ⟨.hbm, 167, rfl⟩
abbrev main_v104 : Ref sig .tc := ⟨.hbm, 168, rfl⟩
abbrev main_call3_cst : Ref sig .tc := ⟨.hbm, 169, rfl⟩
abbrev main_call3_v0 : Ref sig .tc := ⟨.hbm, 170, rfl⟩
abbrev main_call3_cst_0 : Ref sig .tc := ⟨.hbm, 171, rfl⟩
abbrev main_call3_v1 : Ref sig .tc := ⟨.hbm, 172, rfl⟩
abbrev main_call3_v2 : Ref sig .tc := ⟨.hbm, 173, rfl⟩
abbrev main_call3_v3 : Ref sig .tc := ⟨.hbm, 174, rfl⟩
abbrev main_call3_v4 : Ref sig .tc := ⟨.hbm, 175, rfl⟩
abbrev main_call3_v5 : Ref sig .tc := ⟨.hbm, 176, rfl⟩
abbrev main_call3_v6 : Ref sig .tc := ⟨.hbm, 177, rfl⟩
abbrev main_call3_cst_1 : Ref sig .tc := ⟨.hbm, 178, rfl⟩
abbrev main_call3_v7 : Ref sig .tc := ⟨.hbm, 179, rfl⟩
abbrev main_call3_v8 : Ref sig .tc := ⟨.hbm, 180, rfl⟩
abbrev main_call3_v9 : Ref sig .tc := ⟨.hbm, 181, rfl⟩
abbrev main_call3_v10 : Ref sig .tc := ⟨.hbm, 182, rfl⟩
abbrev main_v105 : Ref sig .tc := ⟨.hbm, 183, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg2_0 : Ref sig .tc := ⟨.vmem, 12, rfl⟩
abbrev cc1_stg2_1 : Ref sig .tc := ⟨.vmem, 13, rfl⟩
abbrev cc1_stg3_0 : Ref sig .tc := ⟨.vmem, 14, rfl⟩
abbrev cc1_stg3_1 : Ref sig .tc := ⟨.vmem, 15, rfl⟩
abbrev cc1_stg4_0 : Ref sig .tc := ⟨.vmem, 16, rfl⟩
abbrev cc2_stg0_0 : Ref sig .tc := ⟨.vmem, 17, rfl⟩
abbrev cc2_stg0_1 : Ref sig .tc := ⟨.vmem, 18, rfl⟩
abbrev cc2_stg1_0 : Ref sig .tc := ⟨.vmem, 19, rfl⟩
abbrev cc2_stg2_0 : Ref sig .tc := ⟨.vmem, 20, rfl⟩
abbrev cc2_stg2_1 : Ref sig .tc := ⟨.vmem, 21, rfl⟩
abbrev cc2_stg3_0 : Ref sig .tc := ⟨.vmem, 22, rfl⟩
abbrev cc2_stg3_1 : Ref sig .tc := ⟨.vmem, 23, rfl⟩
abbrev cc2_stg4_0 : Ref sig .tc := ⟨.vmem, 24, rfl⟩
abbrev cc3_stg0_0 : Ref sig .tc := ⟨.vmem, 25, rfl⟩
abbrev cc3_stg0_1 : Ref sig .tc := ⟨.vmem, 26, rfl⟩
abbrev cc3_stg1_0 : Ref sig .tc := ⟨.vmem, 27, rfl⟩
abbrev cc3_stg2_0 : Ref sig .tc := ⟨.vmem, 28, rfl⟩
abbrev cc3_stg2_1 : Ref sig .tc := ⟨.vmem, 29, rfl⟩
abbrev cc3_stg3_0 : Ref sig .tc := ⟨.vmem, 30, rfl⟩
abbrev cc3_stg3_1 : Ref sig .tc := ⟨.vmem, 31, rfl⟩
abbrev cc3_stg4_0 : Ref sig .tc := ⟨.vmem, 32, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8
abbrev cc1_sem0_0 : DmaSem sig := 9
abbrev cc1_sem0_1 : DmaSem sig := 10
abbrev cc1_sem1_0 : DmaSem sig := 11
abbrev cc1_sem2_0 : DmaSem sig := 12
abbrev cc1_sem2_1 : DmaSem sig := 13
abbrev cc1_sem3_0 : DmaSem sig := 14
abbrev cc1_sem3_1 : DmaSem sig := 15
abbrev cc1_sem4_0 : DmaSem sig := 16
abbrev cc2_sem0_0 : DmaSem sig := 17
abbrev cc2_sem0_1 : DmaSem sig := 18
abbrev cc2_sem1_0 : DmaSem sig := 19
abbrev cc2_sem2_0 : DmaSem sig := 20
abbrev cc2_sem2_1 : DmaSem sig := 21
abbrev cc2_sem3_0 : DmaSem sig := 22
abbrev cc2_sem3_1 : DmaSem sig := 23
abbrev cc2_sem4_0 : DmaSem sig := 24
abbrev cc3_sem0_0 : DmaSem sig := 25
abbrev cc3_sem0_1 : DmaSem sig := 26
abbrev cc3_sem1_0 : DmaSem sig := 27
abbrev cc3_sem2_0 : DmaSem sig := 28
abbrev cc3_sem2_1 : DmaSem sig := 29
abbrev cc3_sem3_0 : DmaSem sig := 30
abbrev cc3_sem3_1 : DmaSem sig := 31
abbrev cc3_sem4_0 : DmaSem sig := 32

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S64x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S2000x64 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S2000x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![50], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 2 → Memref sig .tc .vmem S2000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S64x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S2000x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S2000x1 .i32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 1 → Memref sig .tc .vmem S512x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev grid2 : Pipeline.Grid := ⟨1, ![50], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage2_0 : Fin 2 → Memref sig .tc .vmem S2000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S64x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S2000x128 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 2 → Memref sig .tc .vmem S2000x1 .i32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev stage2_4 : Fin 1 → Memref sig .tc .vmem S512x128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev grid3 : Pipeline.Grid := ⟨1, ![50], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage3_0 : Fin 2 → Memref sig .tc .vmem S2000x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S64x128 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S2000x128 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 2 → Memref sig .tc .vmem S2000x1 .i32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

abbrev stage3_4 : Fin 1 → Memref sig .tc .vmem S512x128 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

class Facts₀ : Prop where
  bcast_S_S16x8x8 : S_.BroadcastsInDim S16x8x8 (![] : Fin 0 → Fin S16x8x8.rank)
  bcast_S_S16x28 : S_.BroadcastsInDim S16x28 (![] : Fin 0 → Fin S16x28.rank)
  bcast_S_S28 : S_.BroadcastsInDim S28 (![] : Fin 0 → Fin S28.rank)
  bcast_S28_S28x1_0 : S28.BroadcastsInDim S28x1 (![0] : Fin 1 → Fin S28x1.rank)
  concatenates_S28x1_S28x1_S28x2_d1 : Shape.Concatenates [S28x1, S28x1] S28x2 1
  transposes_S16x8x8_S16x8x8_0_2_1 : S16x8x8.Transposes [0, 2, 1] S16x8x8
  transposes_S64x128_S128x64_1_0 : S64x128.Transposes [1, 0] S128x64
  shapeCasts_S64_S1x64 : S64.ShapeCasts S1x64
  shapeCasts_S16x8x64_S128x64 : S16x8x64.ShapeCasts S128x64
  transposes_S128x64_S64x128_1_0 : S128x64.Transposes [1, 0] S64x128
  inb_S2000x128_S2000x128_0_0 : ∀ a, (![0, 0] : Fin 2 → Nat) a + S2000x128.size a ≤ S2000x128.size a
  h_S2000x128 : 0 < S2000x128.numel
  bitsLt_bf16_f32 : FTy.bits .bf16 < FTy.bits .f32
  inb_S128x64_S128x64_0_0 : ∀ a, (![0, 0] : Fin 2 → Nat) a + S128x64.size a ≤ S128x64.size a
  h_S128x64 : 0 < S128x64.numel
  shapeCasts_S128x64_S128x64 : S128x64.ShapeCasts S128x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S2000x64 : S1x64.Broadcasts S2000x64
  inb_S2000x64_S2000x64_0_0 : ∀ a, (![0, 0] : Fin 2 → Nat) a + S2000x64.size a ≤ S2000x64.size a
  h_S2000x64 : 0 < S2000x64.numel
  inb_S64x128_S64x128_0_0 : ∀ a, (![0, 0] : Fin 2 → Nat) a + S64x128.size a ≤ S64x128.size a
  h_S64x128 : 0 < S64x128.numel
  shapeCasts_S64x128_S64x128 : S64x128.ShapeCasts S64x128
  bcast_S1600000_S1600000x1_0 : S1600000.BroadcastsInDim S1600000x1 (![0] : Fin 1 → Fin S1600000x1.rank)
  bcast_S_S1600000 : S_.BroadcastsInDim S1600000 (![] : Fin 0 → Fin S1600000.rank)
  bcast_S1600000x1_S1600000x64_0_1 : S1600000x1.BroadcastsInDim S1600000x64 (![0, 1] : Fin 2 → Fin S1600000x64.rank)
  bcast_S_S100000x64 : S_.BroadcastsInDim S100000x64 (![] : Fin 0 → Fin S100000x64.rank)
  bcast_S_S100000 : S_.BroadcastsInDim S100000 (![] : Fin 0 → Fin S100000.rank)
  bcast_S_S512 : S_.BroadcastsInDim S512 (![] : Fin 0 → Fin S512.rank)
  bcast_S100000_S100000x1_0 : S100000.BroadcastsInDim S100000x1 (![0] : Fin 1 → Fin S100000x1.rank)
  bcast_S512_S512x1_0 : S512.BroadcastsInDim S512x1 (![0] : Fin 1 → Fin S512x1.rank)
  shapeCasts_S100000_S100000x1 : S100000.ShapeCasts S100000x1
  inb_S512x128_S512x128_0_0 : ∀ a, (![0, 0] : Fin 2 → Nat) a + S512x128.size a ≤ S512x128.size a
  h_S512x128 : 0 < S512x128.numel
  shapeCasts_S2000x64_S2000x64 : S2000x64.ShapeCasts S2000x64
  shapeCasts_S2000x128_S2000x128 : S2000x128.ShapeCasts S2000x128
  inb_S2000x1_S2000x1_0_0 : ∀ a, (![0, 0] : Fin 2 → Nat) a + S2000x1.size a ≤ S2000x1.size a
  h_S2000x1 : 0 < S2000x1.numel
  shapeCasts_S2000x1_S2000x1 : S2000x1.ShapeCasts S2000x1
  iota_S2000x512_d1_w32 : S2000x512.Iotas .tc 32 [1]
  broadcasts_S2000x1_S2000x512 : S2000x1.Broadcasts S2000x512
  natLt_1_32 : 1 < 32
  shapeCasts_S512x128_S512x128 : S512x128.ShapeCasts S512x128
  shapeCasts_S512x128_S512x16x8 : S512x128.ShapeCasts S512x16x8
  reducesTo_S512x16x8_S512x16_d2 : S512x16x8.ReducesTo [2] S512x16
  h_S_ : 0 < S_.numel
  bcast_S512x1_S512x16_0_1 : S512x1.BroadcastsInDim S512x16 (![0, 1] : Fin 2 → Fin S512x16.rank)
  concatenates_S512x16_S512x16_S512x16_S512x48_d1 : Shape.Concatenates [S512x16, S512x16, S512x16] S512x48 1
  reducesTo_S512x48_S48_d0 : S512x48.ReducesTo [0] S48
  bcast_S_S48 : S_.BroadcastsInDim S48 (![] : Fin 0 → Fin S48.rank)
  bcast_S48_S1x48_1 : S48.BroadcastsInDim S1x48 (![1] : Fin 1 → Fin S1x48.rank)
  bcast_S_S1x48 : S_.BroadcastsInDim S1x48 (![] : Fin 0 → Fin S1x48.rank)
  bcast_S1x48_S512x48_0_1 : S1x48.BroadcastsInDim S512x48 (![0, 1] : Fin 2 → Fin S512x48.rank)
  transposes_S128x48_S48x128_1_0 : S128x48.Transposes [1, 0] S48x128
  bcast_S128_S1x128_1 : S128.BroadcastsInDim S1x128 (![1] : Fin 1 → Fin S1x128.rank)
  bcast_S1x128_S512x128_0_1 : S1x128.BroadcastsInDim S512x128 (![0, 1] : Fin 2 → Fin S512x128.rank)
  bcast_S_S512x128 : S_.BroadcastsInDim S512x128 (![] : Fin 0 → Fin S512x128.rank)
  transposes_S10x128_S128x10_1_0 : S10x128.Transposes [1, 0] S128x10
  bcast_S10_S1x10_1 : S10.BroadcastsInDim S1x10 (![1] : Fin 1 → Fin S1x10.rank)
  bcast_S1x10_S512x10_0_1 : S1x10.BroadcastsInDim S512x10 (![0, 1] : Fin 2 → Fin S512x10.rank)
  reducesTo_S512x10_S512_d1 : S512x10.ReducesTo [1] S512
  bcast_S512x1_S512x10_0_1 : S512x1.BroadcastsInDim S512x10 (![0, 1] : Fin 2 → Fin S512x10.rank)
  scatter_S16x8x8_S28x2_S16x28_0_12_12_1_wf : ScatterDims.WF S16x8x8 S28x2 S16x28 [0] [1, 2] [1, 2] 1
  dot_S2000x128_S128x64_S2000x64_1_0_0_1_n_n_wf : DotDims.WF S2000x128 S128x64 S2000x64 [1] [0] [0] [1] [] []
  dot_S2000x64_S64x128_S2000x128_1_0_0_1_n_n_wf : DotDims.WF S2000x64 S64x128 S2000x128 [1] [0] [0] [1] [] []
  dot_S16x8x8_S16x8x64_S16x8x64_2_1_1_2_0_0_wf : DotDims.WF S16x8x8 S16x8x64 S16x8x64 [2] [1] [1] [2] [0] [0]
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  scatter_S512_S100000x1_S100000_n_0_0_1_wf : ScatterDims.WF S512 S100000x1 S100000 [] [0] [0] 1
  dot_S2000x512_S2000x128_S512x128_0_0_1_1_n_n_wf : DotDims.WF S2000x512 S2000x128 S512x128 [0] [0] [1] [1] [] []
  dot_S512x48_S48x128_S512x128_1_0_0_1_n_n_wf : DotDims.WF S512x48 S48x128 S512x128 [1] [0] [0] [1] [] []
  dot_S512x128_S128x10_S512x10_1_0_0_1_n_n_wf : DotDims.WF S512x128 S128x10 S512x10 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S100000x128.size a
  hwx0_0 : ∀ i : grid0.Coords, EltTy.bits .f32 = 32 ∨ (Rect.block (s := S100000x128) S2000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x64.size a ≤ S128x64.size a
  hwx0_1 : ∀ i : grid0.Coords, EltTy.bits .f32 = 32 ∨ (Rect.block (s := S128x64) S128x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x64.size a ≤ S1x64.size a
  hwx0_2 : ∀ i : grid0.Coords, EltTy.bits .f32 = 32 ∨ (Rect.block (s := S1x64) S1x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S64x128.size a ≤ S64x128.size a
  hwx0_3 : ∀ i : grid0.Coords, EltTy.bits .f32 = 32 ∨ (Rect.block (s := S64x128) S64x128.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S2000x64.size a ≤ S100000x64.size a
  hwx0_4 : ∀ i : grid0.Coords, EltTy.bits .f32 = 32 ∨ (Rect.block (s := S100000x64) S2000x64.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S2000x128.size a ≤ S100000x128.size a
  hwx0_5 : ∀ i : grid0.Coords, EltTy.bits .f32 = 32 ∨ (Rect.block (s := S100000x128) S2000x128.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x64.size a ≤ S100000x64.size a
  hwx1_0 : ∀ i : grid1.Coords, EltTy.bits .f32 = 32 ∨ (Rect.block (s := S100000x64) S2000x64.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S64x128.size a ≤ S64x128.size a
  hwx1_1 : ∀ i : grid1.Coords, EltTy.bits .f32 = 32 ∨ (Rect.block (s := S64x128) S64x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S2000x128.size a ≤ S100000x128.size a
  hwx1_2 : ∀ i : grid1.Coords, EltTy.bits .f32 = 32 ∨ (Rect.block (s := S100000x128) S2000x128.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S2000x1.size a ≤ S100000x1.size a
  hwx1_3 : ∀ i : grid1.Coords, EltTy.bits .i32 = 32 ∨ (Rect.block (s := S100000x1) S2000x1.size (cc1_transform_3 i) (hinb1_3 i)).WholeWords (EltTy.packing .i32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S512x128.size a ≤ S512x128.size a
  hwx1_4 : ∀ i : grid1.Coords, EltTy.bits .f32 = 32 ∨ (Rect.block (s := S512x128) S512x128.size (cc1_transform_4 i) (hinb1_4 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x64.size a ≤ S100000x64.size a
  hwx2_0 : ∀ i : grid2.Coords, EltTy.bits .f32 = 32 ∨ (Rect.block (s := S100000x64) S2000x64.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S64x128.size a ≤ S64x128.size a
  hwx2_1 : ∀ i : grid2.Coords, EltTy.bits .f32 = 32 ∨ (Rect.block (s := S64x128) S64x128.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S2000x128.size a ≤ S100000x128.size a
  hwx2_2 : ∀ i : grid2.Coords, EltTy.bits .f32 = 32 ∨ (Rect.block (s := S100000x128) S2000x128.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S2000x1.size a ≤ S100000x1.size a
  hwx2_3 : ∀ i : grid2.Coords, EltTy.bits .i32 = 32 ∨ (Rect.block (s := S100000x1) S2000x1.size (cc2_transform_3 i) (hinb2_3 i)).WholeWords (EltTy.packing .i32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S512x128.size a ≤ S512x128.size a
  hwx2_4 : ∀ i : grid2.Coords, EltTy.bits .f32 = 32 ∨ (Rect.block (s := S512x128) S512x128.size (cc2_transform_4 i) (hinb2_4 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S2000x64.size a ≤ S100000x64.size a
  hwx3_0 : ∀ i : grid3.Coords, EltTy.bits .f32 = 32 ∨ (Rect.block (s := S100000x64) S2000x64.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S64x128.size a ≤ S64x128.size a
  hwx3_1 : ∀ i : grid3.Coords, EltTy.bits .f32 = 32 ∨ (Rect.block (s := S64x128) S64x128.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S2000x128.size a ≤ S100000x128.size a
  hwx3_2 : ∀ i : grid3.Coords, EltTy.bits .f32 = 32 ∨ (Rect.block (s := S100000x128) S2000x128.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S2000x1.size a ≤ S100000x1.size a
  hwx3_3 : ∀ i : grid3.Coords, EltTy.bits .i32 = 32 ∨ (Rect.block (s := S100000x1) S2000x1.size (cc3_transform_3 i) (hinb3_3 i)).WholeWords (EltTy.packing .i32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S512x128.size a ≤ S512x128.size a
  hwx3_4 : ∀ i : grid3.Coords, EltTy.bits .f32 = 32 ∨ (Rect.block (s := S512x128) S512x128.size (cc3_transform_4 i) (hinb3_4 i)).WholeWords (EltTy.packing .f32)

variable [Facts₀]

def scatter_S16x8x8_S28x2_S16x28_0_12_12_1 : ScatterDims S16x8x8 S28x2 S16x28 where
  updateWindowDims := [0]
  insertedWindowDims := [1, 2]
  scatterDimsToOperandDims := [1, 2]
  indexVectorDim := 1
  wf := scatter_S16x8x8_S28x2_S16x28_0_12_12_1_wf
def dot_S2000x128_S128x64_S2000x64_1_0_0_1_n_n : DotDims S2000x128 S128x64 S2000x64 where
  lhsContracting := [1]
  rhsContracting := [0]
  lhsNonContracting := [0]
  rhsNonContracting := [1]
  lhsBatch := []
  rhsBatch := []
  wf := dot_S2000x128_S128x64_S2000x64_1_0_0_1_n_n_wf
def dot_S2000x64_S64x128_S2000x128_1_0_0_1_n_n : DotDims S2000x64 S64x128 S2000x128 where
  lhsContracting := [1]
  rhsContracting := [0]
  lhsNonContracting := [0]
  rhsNonContracting := [1]
  lhsBatch := []
  rhsBatch := []
  wf := dot_S2000x64_S64x128_S2000x128_1_0_0_1_n_n_wf
def dot_S16x8x8_S16x8x64_S16x8x64_2_1_1_2_0_0 : DotDims S16x8x8 S16x8x64 S16x8x64 where
  lhsContracting := [2]
  rhsContracting := [1]
  lhsNonContracting := [1]
  rhsNonContracting := [2]
  lhsBatch := [0]
  rhsBatch := [0]
  wf := dot_S16x8x8_S16x8x64_S16x8x64_2_1_1_2_0_0_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def scatter_S512_S100000x1_S100000_n_0_0_1 : ScatterDims S512 S100000x1 S100000 where
  updateWindowDims := []
  insertedWindowDims := [0]
  scatterDimsToOperandDims := [0]
  indexVectorDim := 1
  wf := scatter_S512_S100000x1_S100000_n_0_0_1_wf
def dot_S2000x512_S2000x128_S512x128_0_0_1_1_n_n : DotDims S2000x512 S2000x128 S512x128 where
  lhsContracting := [0]
  rhsContracting := [0]
  lhsNonContracting := [1]
  rhsNonContracting := [1]
  lhsBatch := []
  rhsBatch := []
  wf := dot_S2000x512_S2000x128_S512x128_0_0_1_1_n_n_wf
def dot_S512x48_S48x128_S512x128_1_0_0_1_n_n : DotDims S512x48 S48x128 S512x128 where
  lhsContracting := [1]
  rhsContracting := [0]
  lhsNonContracting := [0]
  rhsNonContracting := [1]
  lhsBatch := []
  rhsBatch := []
  wf := dot_S512x48_S48x128_S512x128_1_0_0_1_n_n_wf
def dot_S512x128_S128x10_S512x10_1_0_0_1_n_n : DotDims S512x128 S128x10 S512x10 where
  lhsContracting := [1]
  rhsContracting := [0]
  lhsNonContracting := [0]
  rhsNonContracting := [1]
  lhsBatch := []
  rhsBatch := []
  wf := dot_S512x128_S128x10_S512x10_1_0_0_1_n_n_wf

abbrev win0_0 : Pipeline.Window sig grid0 :=
  Pipeline.Window.ofSpec (Memref.whole main_arg0) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v14) S128x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v15) S1x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v17) S64x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v18_0) S2000x64.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v18_1) S2000x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v18_0) S2000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v17) S64x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v18_1) S2000x128.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v58) S2000x1.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_v59) S512x128.size cc1_transform_4 reads1_4 true true 1 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev win2_0 : Pipeline.Window sig grid2 :=
  Pipeline.Window.ofSpec (Memref.whole main_v37) S2000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v21) S64x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v18_1) S2000x128.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v58) S2000x1.size cc2_transform_3 reads2_3 false false 2 stage2_3 sem2_3
    hrank2 hreads2_3 hinb2_3 nbuf2_3 (Memref.isWhole_whole _) hwx2_3 hstage2_3

abbrev win2_4 : Pipeline.Window sig grid2 :=
  Pipeline.Window.ofSpec (Memref.whole main_v60) S512x128.size cc2_transform_4 reads2_4 true true 1 stage2_4 sem2_4
    hrank2 hreads2_4 hinb2_4 nbuf2_4 (Memref.isWhole_whole _) hwx2_4 hstage2_4

abbrev win2 : Fin 5 → Pipeline.Window sig grid2 := fun | 0 => win2_0 | 1 => win2_1 | 2 => win2_2 | 3 => win2_3 | 4 => win2_4 | ⟨_ + 5, h⟩ => absurd h (Nat.not_lt.2 (Nat.le_add_left _ _))
abbrev spec2 : Fin 5 → Pipeline.WinSpec sig grid2.rank := fun w => (win2 w).toWinSpec

abbrev win3_0 : Pipeline.Window sig grid3 :=
  Pipeline.Window.ofSpec (Memref.whole main_v50) S2000x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v24) S64x128.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v18_1) S2000x128.size cc3_transform_2 reads3_2 false false 2 stage3_2 sem3_2
    hrank3 hreads3_2 hinb3_2 nbuf3_2 (Memref.isWhole_whole _) hwx3_2 hstage3_2

abbrev win3_3 : Pipeline.Window sig grid3 :=
  Pipeline.Window.ofSpec (Memref.whole main_v58) S2000x1.size cc3_transform_3 reads3_3 false false 2 stage3_3 sem3_3
    hrank3 hreads3_3 hinb3_3 nbuf3_3 (Memref.isWhole_whole _) hwx3_3 hstage3_3

abbrev win3_4 : Pipeline.Window sig grid3 :=
  Pipeline.Window.ofSpec (Memref.whole main_v61) S512x128.size cc3_transform_4 reads3_4 true true 1 stage3_4 sem3_4
    hrank3 hreads3_4 hinb3_4 nbuf3_4 (Memref.isWhole_whole _) hwx3_4 hstage3_4

abbrev win3 : Fin 5 → Pipeline.Window sig grid3 := fun | 0 => win3_0 | 1 => win3_1 | 2 => win3_2 | 3 => win3_3 | 4 => win3_4 | ⟨_ + 5, h⟩ => absurd h (Nat.not_lt.2 (Nat.le_add_left _ _))
abbrev spec3 : Fin 5 → Pipeline.WinSpec sig grid3.rank := fun w => (win3 w).toWinSpec

class Facts : Prop extends Facts₀ where

variable [Facts]
-- ==== ReferenceIdeal.lean ====
abbrev S100000x128 : Shape := ⟨2, ![100000, 128]⟩
abbrev S1600000 : Shape := ⟨1, ![1600000]⟩
abbrev S16x28 : Shape := ⟨2, ![16, 28]⟩
abbrev S16x8x64 : Shape := ⟨3, ![16, 8, 64]⟩
abbrev S64x128 : Shape := ⟨2, ![64, 128]⟩
abbrev S64 : Shape := ⟨1, ![64]⟩
abbrev S48 : Shape := ⟨1, ![48]⟩
abbrev S128x48 : Shape := ⟨2, ![128, 48]⟩
abbrev S128 : Shape := ⟨1, ![128]⟩
abbrev S10x128 : Shape := ⟨2, ![10, 128]⟩
abbrev S10 : Shape := ⟨1, ![10]⟩
abbrev S100000 : Shape := ⟨1, ![100000]⟩
abbrev S28 : Shape := ⟨1, ![28]⟩
abbrev S_ : Shape := ⟨0, ![]⟩
abbrev S16x8x8 : Shape := ⟨3, ![16, 8, 8]⟩
abbrev S28x1 : Shape := ⟨2, ![28, 1]⟩
abbrev S28x2 : Shape := ⟨2, ![28, 2]⟩
abbrev S128x64 : Shape := ⟨2, ![128, 64]⟩
abbrev S100000x64 : Shape := ⟨2, ![100000, 64]⟩
abbrev S1x64 : Shape := ⟨2, ![1, 64]⟩
abbrev S16x8x100000 : Shape := ⟨3, ![16, 8, 100000]⟩
abbrev S512 : Shape := ⟨1, ![512]⟩
abbrev S100000x1 : Shape := ⟨2, ![100000, 1]⟩
abbrev S512x1 : Shape := ⟨2, ![512, 1]⟩
abbrev S100000x16x8 : Shape := ⟨3, ![100000, 16, 8]⟩
abbrev S512x16x8 : Shape := ⟨3, ![512, 16, 8]⟩
abbrev S512x16 : Shape := ⟨2, ![512, 16]⟩
abbrev S1600000x1 : Shape := ⟨2, ![1600000, 1]⟩
abbrev S1600000x64 : Shape := ⟨2, ![1600000, 64]⟩
abbrev S512x48 : Shape := ⟨2, ![512, 48]⟩
abbrev S1x48 : Shape := ⟨2, ![1, 48]⟩
abbrev S48x128 : Shape := ⟨2, ![48, 128]⟩
abbrev S512x128 : Shape := ⟨2, ![512, 128]⟩
abbrev S1x128 : Shape := ⟨2, ![1, 128]⟩
abbrev S128x10 : Shape := ⟨2, ![128, 10]⟩
abbrev S512x10 : Shape := ⟨2, ![512, 10]⟩
abbrev S1x10 : Shape := ⟨2, ![1, 10]⟩

abbrev nBuf : Space → Nat
  | .hbm => 201
  | .vmem => 0
  | .smem => 0
  | _ => 0

abbrev hbmTy0_0 (i : Nat) : BufTy := match i % 128 with
  | 0 => ⟨S100000x128, .f32⟩
  | 1 => ⟨S1600000, .f32⟩
  | 2 => ⟨S16x28, .f32⟩
  | 3 => ⟨S16x8x64, .f32⟩
  | 4 => ⟨S64x128, .f32⟩
  | 5 => ⟨S64, .f32⟩
  | 6 => ⟨S48, .f32⟩
  | 7 => ⟨S48, .f32⟩
  | 8 => ⟨S128x48, .f32⟩
  | 9 => ⟨S128, .f32⟩
  | 10 => ⟨S10x128, .f32⟩
  | 11 => ⟨S10, .f32⟩
  | 12 => ⟨S100000, .i32⟩
  | 13 => ⟨S1600000, .i32⟩
  | 14 => ⟨S1600000, .i32⟩
  | 15 => ⟨S28, .i32⟩
  | 16 => ⟨S28, .i1⟩
  | 17 => ⟨S28, .i32⟩
  | 18 => ⟨S28, .i1⟩
  | 19 => ⟨S_, .f32⟩
  | 20 => ⟨S16x8x8, .f32⟩
  | 21 => ⟨S_, .f32⟩
  | 22 => ⟨S16x28, .f32⟩
  | 23 => ⟨S16x28, .f32⟩
  | 24 => ⟨S_, .i32⟩
  | 25 => ⟨S28, .i32⟩
  | 26 => ⟨S28, .i32⟩
  | 27 => ⟨S28, .i32⟩
  | 28 => ⟨S_, .i32⟩
  | 29 => ⟨S28, .i32⟩
  | 30 => ⟨S28, .i32⟩
  | 31 => ⟨S28, .i32⟩
  | 32 => ⟨S28x1, .i32⟩
  | 33 => ⟨S28x1, .i32⟩
  | 34 => ⟨S28x2, .i32⟩
  | 35 => ⟨S16x8x8, .f32⟩
  | 36 => ⟨S16x8x8, .f32⟩
  | 37 => ⟨S16x8x8, .f32⟩
  | 38 => ⟨S128x64, .f32⟩
  | 39 => ⟨S100000x64, .f32⟩
  | 40 => ⟨S1x64, .f32⟩
  | 41 => ⟨S100000x64, .f32⟩
  | 42 => ⟨S100000x64, .f32⟩
  | 43 => ⟨S100000x64, .f32⟩
  | 44 => ⟨S100000x64, .f32⟩
  | 45 => ⟨S_, .f32⟩
  | 46 => ⟨S100000x64, .f32⟩
  | 47 => ⟨S100000x64, .f32⟩
  | 48 => ⟨S_, .f32⟩
  | 49 => ⟨S100000x64, .f32⟩
  | 50 => ⟨S100000x64, .f32⟩
  | 51 => ⟨S16x8x100000, .f32⟩
  | 52 => ⟨S_, .f32⟩
  | 53 => ⟨S100000, .f32⟩
  | 54 => ⟨S_, .f32⟩
  | 55 => ⟨S512, .f32⟩
  | 56 => ⟨S100000x1, .i32⟩
  | 57 => ⟨S512, .f32⟩
  | 58 => ⟨S_, .f32⟩
  | 59 => ⟨S512, .f32⟩
  | 60 => ⟨S512, .f32⟩
  | 61 => ⟨S512x1, .f32⟩
  | 62 => ⟨S16x8x100000, .f32⟩
  | 63 => ⟨S100000x16x8, .f32⟩
  | 64 => ⟨S_, .f32⟩
  | 65 => ⟨S512x16x8, .f32⟩
  | 66 => ⟨S100000x1, .i32⟩
  | 67 => ⟨S512x16x8, .f32⟩
  | 68 => ⟨S_, .f32⟩
  | 69 => ⟨S512x16, .f32⟩
  | 70 => ⟨S512x16, .f32⟩
  | 71 => ⟨S512x16, .f32⟩
  | 72 => ⟨S1600000x1, .f32⟩
  | 73 => ⟨S_, .i32⟩
  | 74 => ⟨S1600000, .i32⟩
  | 75 => ⟨S1600000, .i1⟩
  | 76 => ⟨S_, .i32⟩
  | 77 => ⟨S1600000, .i32⟩
  | 78 => ⟨S1600000, .i32⟩
  | 79 => ⟨S1600000, .i32⟩
  | 80 => ⟨S1600000x1, .i32⟩
  | 81 => ⟨S1600000x64, .f32⟩
  | 82 => ⟨S1600000x64, .f32⟩
  | 83 => ⟨S1600000x64, .f32⟩
  | 84 => ⟨S_, .f32⟩
  | 85 => ⟨S100000x64, .f32⟩
  | 86 => ⟨S1600000x1, .i32⟩
  | 87 => ⟨S100000x64, .f32⟩
  | 88 => ⟨S16x8x64, .f32⟩
  | 89 => ⟨S16x8x100000, .f32⟩
  | 90 => ⟨S16x8x100000, .f32⟩
  | 91 => ⟨S100000x16x8, .f32⟩
  | 92 => ⟨S_, .f32⟩
  | 93 => ⟨S512x16x8, .f32⟩
  | 94 => ⟨S100000x1, .i32⟩
  | 95 => ⟨S512x16x8, .f32⟩
  | 96 => ⟨S_, .f32⟩
  | 97 => ⟨S512x16, .f32⟩
  | 98 => ⟨S512x16, .f32⟩
  | 99 => ⟨S512x16, .f32⟩
  | 100 => ⟨S1600000x1, .f32⟩
  | 101 => ⟨S_, .i32⟩
  | 102 => ⟨S1600000, .i32⟩
  | 103 => ⟨S1600000, .i1⟩
  | 104 => ⟨S_, .i32⟩
  | 105 => ⟨S1600000, .i32⟩
  | 106 => ⟨S1600000, .i32⟩
  | 107 => ⟨S1600000, .i32⟩
  | 108 => ⟨S1600000x1, .i32⟩
  | 109 => ⟨S1600000x64, .f32⟩
  | 110 => ⟨S1600000x64, .f32⟩
  | 111 => ⟨S1600000x64, .f32⟩
  | 112 => ⟨S_, .f32⟩
  | 113 => ⟨S100000x64, .f32⟩
  | 114 => ⟨S1600000x1, .i32⟩
  | 115 => ⟨S100000x64, .f32⟩
  | 116 => ⟨S16x8x64, .f32⟩
  | 117 => ⟨S16x8x100000, .f32⟩
  | 118 => ⟨S16x8x100000, .f32⟩
  | 119 => ⟨S100000x16x8, .f32⟩
  | 120 => ⟨S_, .f32⟩
  | 121 => ⟨S512x16x8, .f32⟩
  | 122 => ⟨S100000x1, .i32⟩
  | 123 => ⟨S512x16x8, .f32⟩
  | 124 => ⟨S_, .f32⟩
  | 125 => ⟨S512x16, .f32⟩
  | 126 => ⟨S512x16, .f32⟩
  | 127 => ⟨S512x16, .f32⟩
  | _ => ⟨S100000x128, .f32⟩

abbrev hbmTy0_1 (i : Nat) : BufTy := match i % 128 with
  | 0 => ⟨S512x48, .f32⟩
  | 1 => ⟨S_, .f32⟩
  | 2 => ⟨S48, .f32⟩
  | 3 => ⟨S_, .f32⟩
  | 4 => ⟨S48, .f32⟩
  | 5 => ⟨S48, .f32⟩
  | 6 => ⟨S_, .i32⟩
  | 7 => ⟨S_, .f32⟩
  | 8 => ⟨S48, .f32⟩
  | 9 => ⟨S1x48, .f32⟩
  | 10 => ⟨S_, .f32⟩
  | 11 => ⟨S1x48, .f32⟩
  | 12 => ⟨S1x48, .f32⟩
  | 13 => ⟨S512x48, .f32⟩
  | 14 => ⟨S512x48, .f32⟩
  | 15 => ⟨S512x48, .f32⟩
  | 16 => ⟨S_, .f32⟩
  | 17 => ⟨S_, .f32⟩
  | 18 => ⟨S_, .f32⟩
  | 19 => ⟨S_, .f32⟩
  | 20 => ⟨S48, .f32⟩
  | 21 => ⟨S48, .f32⟩
  | 22 => ⟨S48, .f32⟩
  | 23 => ⟨S_, .f32⟩
  | 24 => ⟨S_, .i1⟩
  | 25 => ⟨S_, .f32⟩
  | 26 => ⟨S_, .f32⟩
  | 27 => ⟨S48, .f32⟩
  | 28 => ⟨S48, .f32⟩
  | 29 => ⟨S1x48, .f32⟩
  | 30 => ⟨S512x48, .f32⟩
  | 31 => ⟨S512x48, .f32⟩
  | 32 => ⟨S1x48, .f32⟩
  | 33 => ⟨S512x48, .f32⟩
  | 34 => ⟨S512x48, .f32⟩
  | 35 => ⟨S_, .f32⟩
  | 36 => ⟨S48, .f32⟩
  | 37 => ⟨S48, .f32⟩
  | 38 => ⟨S48, .f32⟩
  | 39 => ⟨S1x48, .f32⟩
  | 40 => ⟨S512x48, .f32⟩
  | 41 => ⟨S512x48, .f32⟩
  | 42 => ⟨S1x48, .f32⟩
  | 43 => ⟨S512x48, .f32⟩
  | 44 => ⟨S512x48, .f32⟩
  | 45 => ⟨S48x128, .f32⟩
  | 46 => ⟨S512x128, .f32⟩
  | 47 => ⟨S1x128, .f32⟩
  | 48 => ⟨S512x128, .f32⟩
  | 49 => ⟨S512x128, .f32⟩
  | 50 => ⟨S_, .f32⟩
  | 51 => ⟨S512x128, .f32⟩
  | 52 => ⟨S512x128, .f32⟩
  | 53 => ⟨S128x10, .f32⟩
  | 54 => ⟨S512x10, .f32⟩
  | 55 => ⟨S1x10, .f32⟩
  | 56 => ⟨S512x10, .f32⟩
  | 57 => ⟨S512x10, .f32⟩
  | 58 => ⟨S_, .f32⟩
  | 59 => ⟨S512, .f32⟩
  | 60 => ⟨S_, .f32⟩
  | 61 => ⟨S512, .f32⟩
  | 62 => ⟨S512, .f32⟩
  | 63 => ⟨S512x1, .f32⟩
  | 64 => ⟨S512x10, .f32⟩
  | 65 => ⟨S512x10, .f32⟩
  | 66 => ⟨S512x10, .f32⟩
  | 67 => ⟨S_, .f32⟩
  | 68 => ⟨S512, .f32⟩
  | 69 => ⟨S512x1, .f32⟩
  | 70 => ⟨S512x1, .f32⟩
  | 71 => ⟨S512x10, .f32⟩
  | 72 => ⟨S512x10, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_c : Ref sig .tc := ⟨.hbm, 15, rfl⟩
abbrev main_c_0 : Ref sig .tc := ⟨.hbm, 16, rfl⟩
abbrev main_c_1 : Ref sig .tc := ⟨.hbm, 17, rfl⟩
abbrev main_c_2 : Ref sig .tc := ⟨.hbm, 18, rfl⟩
abbrev main_cst : Ref sig .tc := ⟨.hbm, 19, rfl⟩
abbrev main_v0 : Ref sig .tc := ⟨.hbm, 20, rfl⟩
abbrev main_call0_cst : Ref sig .tc := ⟨.hbm, 21, rfl⟩
abbrev main_call0_v0 : Ref sig .tc := ⟨.hbm, 22, rfl⟩
abbrev main_v1 : Ref sig .tc := ⟨.hbm, 23, rfl⟩
abbrev main_c_3 : Ref sig .tc := ⟨.hbm, 24, rfl⟩
abbrev main_v2 : Ref sig .tc := ⟨.hbm, 25, rfl⟩
abbrev main_v3 : Ref sig .tc := ⟨.hbm, 26, rfl⟩
abbrev main_v4 : Ref sig .tc := ⟨.hbm, 27, rfl⟩
abbrev main_c_4 : Ref sig .tc := ⟨.hbm, 28, rfl⟩
abbrev main_v5 : Ref sig .tc := ⟨.hbm, 29, rfl⟩
abbrev main_v6 : Ref sig .tc := ⟨.hbm, 30, rfl⟩
abbrev main_v7 : Ref sig .tc := ⟨.hbm, 31, rfl⟩
abbrev main_v8 : Ref sig .tc := ⟨.hbm, 32, rfl⟩
abbrev main_v9 : Ref sig .tc := ⟨.hbm, 33, rfl⟩
abbrev main_v10 : Ref sig .tc := ⟨.hbm, 34, rfl⟩
abbrev main_v11 : Ref sig .tc := ⟨.hbm, 35, rfl⟩
abbrev main_v12 : Ref sig .tc := ⟨.hbm, 36, rfl⟩
abbrev main_v13 : Ref sig .tc := ⟨.hbm, 37, rfl⟩
abbrev main_v14 : Ref sig .tc := ⟨.hbm, 38, rfl⟩
abbrev main_v15 : Ref sig .tc := ⟨.hbm, 39, rfl⟩
abbrev main_v16 : Ref sig .tc := ⟨.hbm, 40, rfl⟩
abbrev main_v17 : Ref sig .tc := ⟨.hbm, 41, rfl⟩
abbrev main_v18 : Ref sig .tc := ⟨.hbm, 42, rfl⟩
abbrev main_v19 : Ref sig .tc := ⟨.hbm, 43, rfl⟩
abbrev main_v20 : Ref sig .tc := ⟨.hbm, 44, rfl⟩
abbrev main_cst_5 : Ref sig .tc := ⟨.hbm, 45, rfl⟩
abbrev main_v21 : Ref sig .tc := ⟨.hbm, 46, rfl⟩
abbrev main_v22 : Ref sig .tc := ⟨.hbm, 47, rfl⟩
abbrev main_cst_6 : Ref sig .tc := ⟨.hbm, 48, rfl⟩
abbrev main_v23 : Ref sig .tc := ⟨.hbm, 49, rfl⟩
abbrev main_v24 : Ref sig .tc := ⟨.hbm, 50, rfl⟩
abbrev main_v25 : Ref sig .tc := ⟨.hbm, 51, rfl⟩
abbrev main_cst_7 : Ref sig .tc := ⟨.hbm, 52, rfl⟩
abbrev main_v26 : Ref sig .tc := ⟨.hbm, 53, rfl⟩
abbrev main_cst_8 : Ref sig .tc := ⟨.hbm, 54, rfl⟩
abbrev main_v27 : Ref sig .tc := ⟨.hbm, 55, rfl⟩
abbrev main_v28 : Ref sig .tc := ⟨.hbm, 56, rfl⟩
abbrev main_v29 : Ref sig .tc := ⟨.hbm, 57, rfl⟩
abbrev main_cst_9 : Ref sig .tc := ⟨.hbm, 58, rfl⟩
abbrev main_v30 : Ref sig .tc := ⟨.hbm, 59, rfl⟩
abbrev main_v31 : Ref sig .tc := ⟨.hbm, 60, rfl⟩
abbrev main_v32 : Ref sig .tc := ⟨.hbm, 61, rfl⟩
abbrev main_v33 : Ref sig .tc := ⟨.hbm, 62, rfl⟩
abbrev main_v34 : Ref sig .tc := ⟨.hbm, 63, rfl⟩
abbrev main_cst_10 : Ref sig .tc := ⟨.hbm, 64, rfl⟩
abbrev main_v35 : Ref sig .tc := ⟨.hbm, 65, rfl⟩
abbrev main_v36 : Ref sig .tc := ⟨.hbm, 66, rfl⟩
abbrev main_v37 : Ref sig .tc := ⟨.hbm, 67, rfl⟩
abbrev main_cst_11 : Ref sig .tc := ⟨.hbm, 68, rfl⟩
abbrev main_v38 : Ref sig .tc := ⟨.hbm, 69, rfl⟩
abbrev main_v39 : Ref sig .tc := ⟨.hbm, 70, rfl⟩
abbrev main_v40 : Ref sig .tc := ⟨.hbm, 71, rfl⟩
abbrev main_v41 : Ref sig .tc := ⟨.hbm, 72, rfl⟩
abbrev main_c_12 : Ref sig .tc := ⟨.hbm, 73, rfl⟩
abbrev main_v42 : Ref sig .tc := ⟨.hbm, 74, rfl⟩
abbrev main_v43 : Ref sig .tc := ⟨.hbm, 75, rfl⟩
abbrev main_c_13 : Ref sig .tc := ⟨.hbm, 76, rfl⟩
abbrev main_v44 : Ref sig .tc := ⟨.hbm, 77, rfl⟩
abbrev main_v45 : Ref sig .tc := ⟨.hbm, 78, rfl⟩
abbrev main_v46 : Ref sig .tc := ⟨.hbm, 79, rfl⟩
abbrev main_v47 : Ref sig .tc := ⟨.hbm, 80, rfl⟩
abbrev main_v48 : Ref sig .tc := ⟨.hbm, 81, rfl⟩
abbrev main_v49 : Ref sig .tc := ⟨.hbm, 82, rfl⟩
abbrev main_v50 : Ref sig .tc := ⟨.hbm, 83, rfl⟩
abbrev main_cst_14 : Ref sig .tc := ⟨.hbm, 84, rfl⟩
abbrev main_v51 : Ref sig .tc := ⟨.hbm, 85, rfl⟩
abbrev main_v52 : Ref sig .tc := ⟨.hbm, 86, rfl⟩
abbrev main_v53 : Ref sig .tc := ⟨.hbm, 87, rfl⟩
abbrev main_v54 : Ref sig .tc := ⟨.hbm, 88, rfl⟩
abbrev main_v55 : Ref sig .tc := ⟨.hbm, 89, rfl⟩
abbrev main_v56 : Ref sig .tc := ⟨.hbm, 90, rfl⟩
abbrev main_v57 : Ref sig .tc := ⟨.hbm, 91, rfl⟩
abbrev main_cst_15 : Ref sig .tc := ⟨.hbm, 92, rfl⟩
abbrev main_v58 : Ref sig .tc := ⟨.hbm, 93, rfl⟩
abbrev main_v59 : Ref sig .tc := ⟨.hbm, 94, rfl⟩
abbrev main_v60 : Ref sig .tc := ⟨.hbm, 95, rfl⟩
abbrev main_cst_16 : Ref sig .tc := ⟨.hbm, 96, rfl⟩
abbrev main_v61 : Ref sig .tc := ⟨.hbm, 97, rfl⟩
abbrev main_v62 : Ref sig .tc := ⟨.hbm, 98, rfl⟩
abbrev main_v63 : Ref sig .tc := ⟨.hbm, 99, rfl⟩
abbrev main_v64 : Ref sig .tc := ⟨.hbm, 100, rfl⟩
abbrev main_c_17 : Ref sig .tc := ⟨.hbm, 101, rfl⟩
abbrev main_v65 : Ref sig .tc := ⟨.hbm, 102, rfl⟩
abbrev main_v66 : Ref sig .tc := ⟨.hbm, 103, rfl⟩
abbrev main_c_18 : Ref sig .tc := ⟨.hbm, 104, rfl⟩
abbrev main_v67 : Ref sig .tc := ⟨.hbm, 105, rfl⟩
abbrev main_v68 : Ref sig .tc := ⟨.hbm, 106, rfl⟩
abbrev main_v69 : Ref sig .tc := ⟨.hbm, 107, rfl⟩
abbrev main_v70 : Ref sig .tc := ⟨.hbm, 108, rfl⟩
abbrev main_v71 : Ref sig .tc := ⟨.hbm, 109, rfl⟩
abbrev main_v72 : Ref sig .tc := ⟨.hbm, 110, rfl⟩
abbrev main_v73 : Ref sig .tc := ⟨.hbm, 111, rfl⟩
abbrev main_cst_19 : Ref sig .tc := ⟨.hbm, 112, rfl⟩
abbrev main_v74 : Ref sig .tc := ⟨.hbm, 113, rfl⟩
abbrev main_v75 : Ref sig .tc := ⟨.hbm, 114, rfl⟩
abbrev main_v76 : Ref sig .tc := ⟨.hbm, 115, rfl⟩
abbrev main_v77 : Ref sig .tc := ⟨.hbm, 116, rfl⟩
abbrev main_v78 : Ref sig .tc := ⟨.hbm, 117, rfl⟩
abbrev main_v79 : Ref sig .tc := ⟨.hbm, 118, rfl⟩
abbrev main_v80 : Ref sig .tc := ⟨.hbm, 119, rfl⟩
abbrev main_cst_20 : Ref sig .tc := ⟨.hbm, 120, rfl⟩
abbrev main_v81 : Ref sig .tc := ⟨.hbm, 121, rfl⟩
abbrev main_v82 : Ref sig .tc := ⟨.hbm, 122, rfl⟩
abbrev main_v83 : Ref sig .tc := ⟨.hbm, 123, rfl⟩
abbrev main_cst_21 : Ref sig .tc := ⟨.hbm, 124, rfl⟩
abbrev main_v84 : Ref sig .tc := ⟨.hbm, 125, rfl⟩
abbrev main_v85 : Ref sig .tc := ⟨.hbm, 126, rfl⟩
abbrev main_v86 : Ref sig .tc := ⟨.hbm, 127, rfl⟩
abbrev main_v87 : Ref sig .tc := ⟨.hbm, 128, rfl⟩
abbrev main_cst_22 : Ref sig .tc := ⟨.hbm, 129, rfl⟩
abbrev main_v88 : Ref sig .tc := ⟨.hbm, 130, rfl⟩
abbrev main_cst_23 : Ref sig .tc := ⟨.hbm, 131, rfl⟩
abbrev main_v89 : Ref sig .tc := ⟨.hbm, 132, rfl⟩
abbrev main_v90 : Ref sig .tc := ⟨.hbm, 133, rfl⟩
abbrev main_c_24 : Ref sig .tc := ⟨.hbm, 134, rfl⟩
abbrev main_call1_cst : Ref sig .tc := ⟨.hbm, 135, rfl⟩
abbrev main_call1_v0 : Ref sig .tc := ⟨.hbm, 136, rfl⟩
abbrev main_call1_v1 : Ref sig .tc := ⟨.hbm, 137, rfl⟩
abbrev main_call1_cst_0 : Ref sig .tc := ⟨.hbm, 138, rfl⟩
abbrev main_call1_v2 : Ref sig .tc := ⟨.hbm, 139, rfl⟩
abbrev main_call1_v3 : Ref sig .tc := ⟨.hbm, 140, rfl⟩
abbrev main_call1_v4 : Ref sig .tc := ⟨.hbm, 141, rfl⟩
abbrev main_call1_v5 : Ref sig .tc := ⟨.hbm, 142, rfl⟩
abbrev main_call1_v6 : Ref sig .tc := ⟨.hbm, 143, rfl⟩
abbrev main_call1_v7 : Ref sig .tc := ⟨.hbm, 144, rfl⟩
abbrev main_call1_cst_1 : Ref sig .tc := ⟨.hbm, 145, rfl⟩
abbrev main_call1_v8 : Ref sig .tc := ⟨.hbm, 146, rfl⟩
abbrev main_call1_cst_2 : Ref sig .tc := ⟨.hbm, 147, rfl⟩
abbrev main_call1_v9 : Ref sig .tc := ⟨.hbm, 148, rfl⟩
abbrev main_call1_v10 : Ref sig .tc := ⟨.hbm, 149, rfl⟩
abbrev main_call1_v11 : Ref sig .tc := ⟨.hbm, 150, rfl⟩
abbrev main_call1_cst_3 : Ref sig .tc := ⟨.hbm, 151, rfl⟩
abbrev main_call1_v12 : Ref sig .tc := ⟨.hbm, 152, rfl⟩
abbrev main_call1_cst_4 : Ref sig .tc := ⟨.hbm, 153, rfl⟩
abbrev main_call1_call0_v0 : Ref sig .tc := ⟨.hbm, 154, rfl⟩
abbrev main_call1_call0_v1 : Ref sig .tc := ⟨.hbm, 155, rfl⟩
abbrev main_v91 : Ref sig .tc := ⟨.hbm, 156, rfl⟩
abbrev main_v92 : Ref sig .tc := ⟨.hbm, 157, rfl⟩
abbrev main_v93 : Ref sig .tc := ⟨.hbm, 158, rfl⟩
abbrev main_v94 : Ref sig .tc := ⟨.hbm, 159, rfl⟩
abbrev main_v95 : Ref sig .tc := ⟨.hbm, 160, rfl⟩
abbrev main_v96 : Ref sig .tc := ⟨.hbm, 161, rfl⟩
abbrev main_v97 : Ref sig .tc := ⟨.hbm, 162, rfl⟩
abbrev main_cst_25 : Ref sig .tc := ⟨.hbm, 163, rfl⟩
abbrev main_v98 : Ref sig .tc := ⟨.hbm, 164, rfl⟩
abbrev main_v99 : Ref sig .tc := ⟨.hbm, 165, rfl⟩
abbrev main_v100 : Ref sig .tc := ⟨.hbm, 166, rfl⟩
abbrev main_v101 : Ref sig .tc := ⟨.hbm, 167, rfl⟩
abbrev main_v102 : Ref sig .tc := ⟨.hbm, 168, rfl⟩
abbrev main_v103 : Ref sig .tc := ⟨.hbm, 169, rfl⟩
abbrev main_v104 : Ref sig .tc := ⟨.hbm, 170, rfl⟩
abbrev main_v105 : Ref sig .tc := ⟨.hbm, 171, rfl⟩
abbrev main_v106 : Ref sig .tc := ⟨.hbm, 172, rfl⟩
abbrev main_v107 : Ref sig .tc := ⟨.hbm, 173, rfl⟩
abbrev main_v108 : Ref sig .tc := ⟨.hbm, 174, rfl⟩
abbrev main_v109 : Ref sig .tc := ⟨.hbm, 175, rfl⟩
abbrev main_v110 : Ref sig .tc := ⟨.hbm, 176, rfl⟩
abbrev main_v111 : Ref sig .tc := ⟨.hbm, 177, rfl⟩
abbrev main_call2_cst : Ref sig .tc := ⟨.hbm, 178, rfl⟩
abbrev main_call2_v0 : Ref sig .tc := ⟨.hbm, 179, rfl⟩
abbrev main_v112 : Ref sig .tc := ⟨.hbm, 180, rfl⟩
abbrev main_v113 : Ref sig .tc := ⟨.hbm, 181, rfl⟩
abbrev main_v114 : Ref sig .tc := ⟨.hbm, 182, rfl⟩
abbrev main_v115 : Ref sig .tc := ⟨.hbm, 183, rfl⟩
abbrev main_v116 : Ref sig .tc := ⟨.hbm, 184, rfl⟩
abbrev main_v117 : Ref sig .tc := ⟨.hbm, 185, rfl⟩
abbrev main_call3_cst : Ref sig .tc := ⟨.hbm, 186, rfl⟩
abbrev main_call3_v0 : Ref sig .tc := ⟨.hbm, 187, rfl⟩
abbrev main_call3_cst_0 : Ref sig .tc := ⟨.hbm, 188, rfl⟩
abbrev main_call3_v1 : Ref sig .tc := ⟨.hbm, 189, rfl⟩
abbrev main_call3_v2 : Ref sig .tc := ⟨.hbm, 190, rfl⟩
abbrev main_call3_v3 : Ref sig .tc := ⟨.hbm, 191, rfl⟩
abbrev main_call3_v4 : Ref sig .tc := ⟨.hbm, 192, rfl⟩
abbrev main_call3_v5 : Ref sig .tc := ⟨.hbm, 193, rfl⟩
abbrev main_call3_v6 : Ref sig .tc := ⟨.hbm, 194, rfl⟩
abbrev main_call3_cst_1 : Ref sig .tc := ⟨.hbm, 195, rfl⟩
abbrev main_call3_v7 : Ref sig .tc := ⟨.hbm, 196, rfl⟩
abbrev main_call3_v8 : Ref sig .tc := ⟨.hbm, 197, rfl⟩
abbrev main_call3_v9 : Ref sig .tc := ⟨.hbm, 198, rfl⟩
abbrev main_call3_v10 : Ref sig .tc := ⟨.hbm, 199, rfl⟩
abbrev main_v118 : Ref sig .tc := ⟨.hbm, 200, rfl⟩

abbrev nD : Nat := 1
abbrev τ : Topo := Topo.v7x

variable {F : FTy → Type} [FloatOps F]

class Facts₀ : Prop where
  bcast_S_S16x8x8 : S_.BroadcastsInDim S16x8x8 (![] : Fin 0 → Fin S16x8x8.rank)
  bcast_S_S16x28 : S_.BroadcastsInDim S16x28 (![] : Fin 0 → Fin S16x28.rank)
  bcast_S_S28 : S_.BroadcastsInDim S28 (![] : Fin 0 → Fin S28.rank)
  bcast_S28_S28x1_0 : S28.BroadcastsInDim S28x1 (![0] : Fin 1 → Fin S28x1.rank)
  concatenates_S28x1_S28x1_S28x2_d1 : Shape.Concatenates [S28x1, S28x1] S28x2 1
  transposes_S16x8x8_S16x8x8_0_2_1 : S16x8x8.Transposes [0, 2, 1] S16x8x8
  transposes_S64x128_S128x64_1_0 : S64x128.Transposes [1, 0] S128x64
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  bcast_S_S100000x64 : S_.BroadcastsInDim S100000x64 (![] : Fin 0 → Fin S100000x64.rank)
  bcast_S_S100000 : S_.BroadcastsInDim S100000 (![] : Fin 0 → Fin S100000.rank)
  bcast_S_S512 : S_.BroadcastsInDim S512 (![] : Fin 0 → Fin S512.rank)
  bcast_S100000_S100000x1_0 : S100000.BroadcastsInDim S100000x1 (![0] : Fin 1 → Fin S100000x1.rank)
  bcast_S512_S512x1_0 : S512.BroadcastsInDim S512x1 (![0] : Fin 1 → Fin S512x1.rank)
  transposes_S16x8x100000_S100000x16x8_2_0_1 : S16x8x100000.Transposes [2, 0, 1] S100000x16x8
  bcast_S_S512x16x8 : S_.BroadcastsInDim S512x16x8 (![] : Fin 0 → Fin S512x16x8.rank)
  reducesTo_S512x16x8_S512x16_d2 : S512x16x8.ReducesTo [2] S512x16
  h_S_ : 0 < S_.numel
  bcast_S512x1_S512x16_0_1 : S512x1.BroadcastsInDim S512x16 (![0, 1] : Fin 2 → Fin S512x16.rank)
  bcast_S1600000_S1600000x1_0 : S1600000.BroadcastsInDim S1600000x1 (![0] : Fin 1 → Fin S1600000x1.rank)
  bcast_S_S1600000 : S_.BroadcastsInDim S1600000 (![] : Fin 0 → Fin S1600000.rank)
  bcast_S1600000x1_S1600000x64_0_1 : S1600000x1.BroadcastsInDim S1600000x64 (![0, 1] : Fin 2 → Fin S1600000x64.rank)
  concatenates_S512x16_S512x16_S512x16_S512x48_d1 : Shape.Concatenates [S512x16, S512x16, S512x16] S512x48 1
  reducesTo_S512x48_S48_d0 : S512x48.ReducesTo [0] S48
  bcast_S_S48 : S_.BroadcastsInDim S48 (![] : Fin 0 → Fin S48.rank)
  bcast_S48_S1x48_1 : S48.BroadcastsInDim S1x48 (![1] : Fin 1 → Fin S1x48.rank)
  bcast_S_S1x48 : S_.BroadcastsInDim S1x48 (![] : Fin 0 → Fin S1x48.rank)
  bcast_S1x48_S512x48_0_1 : S1x48.BroadcastsInDim S512x48 (![0, 1] : Fin 2 → Fin S512x48.rank)
  transposes_S128x48_S48x128_1_0 : S128x48.Transposes [1, 0] S48x128
  bcast_S128_S1x128_1 : S128.BroadcastsInDim S1x128 (![1] : Fin 1 → Fin S1x128.rank)
  bcast_S1x128_S512x128_0_1 : S1x128.BroadcastsInDim S512x128 (![0, 1] : Fin 2 → Fin S512x128.rank)
  bcast_S_S512x128 : S_.BroadcastsInDim S512x128 (![] : Fin 0 → Fin S512x128.rank)
  transposes_S10x128_S128x10_1_0 : S10x128.Transposes [1, 0] S128x10
  bcast_S10_S1x10_1 : S10.BroadcastsInDim S1x10 (![1] : Fin 1 → Fin S1x10.rank)
  bcast_S1x10_S512x10_0_1 : S1x10.BroadcastsInDim S512x10 (![0, 1] : Fin 2 → Fin S512x10.rank)
  reducesTo_S512x10_S512_d1 : S512x10.ReducesTo [1] S512
  bcast_S512x1_S512x10_0_1 : S512x1.BroadcastsInDim S512x10 (![0, 1] : Fin 2 → Fin S512x10.rank)
  scatter_S16x8x8_S28x2_S16x28_0_12_12_1_wf : ScatterDims.WF S16x8x8 S28x2 S16x28 [0] [1, 2] [1, 2] 1
  dot_S100000x128_S128x64_S100000x64_1_0_0_1_n_n_wf : DotDims.WF S100000x128 S128x64 S100000x64 [1] [0] [0] [1] [] []
  dot_S16x8x64_S100000x64_S16x8x100000_2_1_01_0_n_n_wf : DotDims.WF S16x8x64 S100000x64 S16x8x100000 [2] [1] [0, 1] [0] [] []
  scatter_S512_S100000x1_S100000_n_0_0_1_wf : ScatterDims.WF S512 S100000x1 S100000 [] [0] [0] 1
  scatter_S512x16x8_S100000x1_S100000x16x8_12_0_0_1_wf : ScatterDims.WF S512x16x8 S100000x1 S100000x16x8 [1, 2] [0] [0] 1
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  dot_S16x8x8_S16x8x64_S16x8x64_2_1_1_2_0_0_wf : DotDims.WF S16x8x8 S16x8x64 S16x8x64 [2] [1] [1] [2] [0] [0]
  dot_S512x48_S48x128_S512x128_1_0_0_1_n_n_wf : DotDims.WF S512x48 S48x128 S512x128 [1] [0] [0] [1] [] []
  dot_S512x128_S128x10_S512x10_1_0_0_1_n_n_wf : DotDims.WF S512x128 S128x10 S512x10 [1] [0] [0] [1] [] []

variable [Facts₀]

def scatter_S16x8x8_S28x2_S16x28_0_12_12_1 : ScatterDims S16x8x8 S28x2 S16x28 where
  updateWindowDims := [0]
  insertedWindowDims := [1, 2]
  scatterDimsToOperandDims := [1, 2]
  indexVectorDim := 1
  wf := scatter_S16x8x8_S28x2_S16x28_0_12_12_1_wf
def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf
def dot_S16x8x64_S100000x64_S16x8x100000_2_1_01_0_n_n : DotDims S16x8x64 S100000x64 S16x8x100000 where
  lhsContracting := [2]
  rhsContracting := [1]
  lhsNonContracting := [0, 1]
  rhsNonContracting := [0]
  lhsBatch := []
  rhsBatch := []
  wf := dot_S16x8x64_S100000x64_S16x8x100000_2_1_01_0_n_n_wf
def scatter_S512_S100000x1_S100000_n_0_0_1 : ScatterDims S512 S100000x1 S100000 where
  updateWindowDims := []
  insertedWindowDims := [0]
  scatterDimsToOperandDims := [0]
  indexVectorDim := 1
  wf := scatter_S512_S100000x1_S100000_n_0_0_1_wf
def scatter_S512x16x8_S100000x1_S100000x16x8_12_0_0_1 : ScatterDims S512x16x8 S100000x1 S100000x16x8 where
  updateWindowDims := [1, 2]
  insertedWindowDims := [0]
  scatterDimsToOperandDims := [0]
  indexVectorDim := 1
  wf := scatter_S512x16x8_S100000x1_S100000x16x8_12_0_0_1_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def dot_S16x8x8_S16x8x64_S16x8x64_2_1_1_2_0_0 : DotDims S16x8x8 S16x8x64 S16x8x64 where
  lhsContracting := [2]
  rhsContracting := [1]
  lhsNonContracting := [1]
  rhsNonContracting := [2]
  lhsBatch := [0]
  rhsBatch := [0]
  wf := dot_S16x8x8_S16x8x64_S16x8x64_2_1_1_2_0_0_wf
def dot_S512x48_S48x128_S512x128_1_0_0_1_n_n : DotDims S512x48 S48x128 S512x128 where
  lhsContracting := [1]
  rhsContracting := [0]
  lhsNonContracting := [0]
  rhsNonContracting := [1]
  lhsBatch := []
  rhsBatch := []
  wf := dot_S512x48_S48x128_S512x128_1_0_0_1_n_n_wf
def dot_S512x128_S128x10_S512x10_1_0_0_1_n_n : DotDims S512x128 S128x10 S512x10 where
  lhsContracting := [1]
  rhsContracting := [0]
  lhsNonContracting := [0]
  rhsNonContracting := [1]
  lhsBatch := []
  rhsBatch := []
  wf := dot_S512x128_S128x10_S512x10_1_0_0_1_n_n_wf

class Facts : Prop extends Facts₀ where

variable [Facts]
-- ==== Proof.KReg0.lean ====
import proofs.«420008_j32530082300305_1_alg».proof.Proof.Gen.Kernel.Launch
import proofs.«420008_j32530082300305_1_alg».proof.Proof.Gen.Kernel.Skeleton
import proofs.«420008_j32530082300305_1_alg».proof.Proof.Gen.Kernel.Points
import Idealize.ShloMosaic.Lib.Pipeline.FrameBody
import Idealize.ShloMosaic.Lib.Tactic

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

abbrev rA : Rect S2000x128 := Rect.unit (s := S2000x128) ![0, 0] S2000x128.size inb_S2000x128_S2000x128_0_0
abbrev rB : Rect S128x64 := Rect.unit (s := S128x64) ![0, 0] S128x64.size inb_S128x64_S128x64_0_0
abbrev rC : Rect S1x64 := Rect.unit (s := S1x64) ![0, 0] S1x64.size inb_S1x64_S1x64_0_0
abbrev rD : Rect S64x128 := Rect.unit (s := S64x128) ![0, 0] S64x128.size inb_S64x128_S64x128_0_0
abbrev rE : Rect S2000x64 := Rect.unit (s := S2000x64) ![0, 0] S2000x64.size inb_S2000x64_S2000x64_0_0

def out0_4 (x0 : Vec F S2000x128 .f32) (x1 : Vec F S128x64 .f32) (x2 : Vec F S1x64 .f32) : Vec F S2000x64 .f32 :=
  View.canon [⟨rE, k0_pay1 (View.ld x0 rA) (View.ld x1 rB) (View.ld x2 rC)⟩]

def out0_5 (x0 : Vec F S2000x128 .f32) (x1 : Vec F S128x64 .f32) (x2 : Vec F S1x64 .f32) (x3 : Vec F S64x128 .f32) : Vec F S2000x128 .f32 :=
  View.canon [⟨rA, k0_pay2 (View.ld x0 rA) (View.ld x1 rB) (View.ld x2 rC) (View.ld x3 rD)⟩]

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => out0_4 (iblk0 V c 0 t) (iblk0 V c 1 t) (iblk0 V c 2 t)
    | ⟨5, _⟩ => out0_5 (iblk0 V c 0 t) (iblk0 V c 1 t) (iblk0 V c 2 t) (iblk0 V c 3 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) :
    (dat0 V c).after 4 t = out0_4 (iblk0 V c 0 t) (iblk0 V c 1 t) (iblk0 V c 2 t) := by dsimp only [dat0]
theorem after0_5 (c : Dev nD) (t : Fin cfg0.N) :
    (dat0 V c).after 5 t = out0_5 (iblk0 V c 0 t) (iblk0 V c 1 t) (iblk0 V c 2 t) (iblk0 V c 3 t) := by dsimp only [dat0]

theorem before0_0 (c : Dev nD) (t : Fin cfg0.N) (d) : (dat0 V c).before 0 t d = iblk0 V c 0 t :=
  (dat0 V c).before_in_eq_fetched 0 rfl (fun _ => rfl) (fun _ _ _ => rfl) (fun _ => rfl) t d

theorem before0_1 (c : Dev nD) (t : Fin cfg0.N) (d) : (dat0 V c).before 1 t d = iblk0 V c 1 t :=
  (dat0 V c).before_in_eq_fetched 1 rfl (fun _ => rfl) (fun _ _ _ => rfl) (fun _ => rfl) t d

theorem before0_2 (c : Dev nD) (t : Fin cfg0.N) (d) : (dat0 V c).before 2 t d = iblk0 V c 2 t :=
  (dat0 V c).before_in_eq_fetched 2 rfl (fun _ => rfl) (fun _ _ _ => rfl) (fun _ => rfl) t d

theorem before0_3 (c : Dev nD) (t : Fin cfg0.N) (d) : (dat0 V c).before 3 t d = iblk0 V c 3 t :=
  (dat0 V c).before_in_eq_fetched 3 rfl (fun _ => rfl) (fun _ _ _ => rfl) (fun _ => rfl) t d

theorem cover0_4 (p0 : Vec F S2000x64 .f32) (y : S2000x64.Idx) :
    ∃ pc ∈ ([⟨rE, p0⟩] : List (View.Piece (Elt F) S2000x64 .f32)), y ∈ pc.1.set :=
  View.cover_of_tiled [⟨rE, p0⟩] S2000x64.size (by rfl) y

theorem cover0_5 (p0 : Vec F S2000x128 .f32) (y : S2000x128.Idx) :
    ∃ pc ∈ ([⟨rA, p0⟩] : List (View.Piece (Elt F) S2000x128 .f32)), y ∈ pc.1.set :=
  View.cover_of_tiled [⟨rA, p0⟩] S2000x128.size (by rfl) y

theorem sound_kernel0 (c : Dev nD) (E : Set ℕ) (i : grid0.Coords)
    (a1 : Memref sig .tc .vmem S2000x128 .f32) (h1 : a1.IsWhole) (a2 : Memref sig .tc .vmem S128x64 .f32) (h2 : a2.IsWhole)
    (a3 : Memref sig .tc .vmem S1x64 .f32) (h3 : a3.IsWhole) (a4 : Memref sig .tc .vmem S64x128 .f32) (h4 : a4.IsWhole)
    (a5 : Memref sig .tc .vmem S2000x64 .f32) (h5 : a5.IsWhole) (a6 : Memref sig .tc .vmem S2000x128 .f32) (h6 : a6.IsWhole)
    (x0 : Vec F S2000x128 .f32) (x1 : Vec F S128x64 .f32) (x2 : Vec F S1x64 .f32) (x3 : Vec F S64x128 .f32)
    (K : PUnit → sProp 𝕄) :
    iprop(owns (c : Thread nD τ) a1 fullShare x0 ∗ owns (c : Thread nD τ) a2 fullShare x1
        ∗ owns (c : Thread nD τ) a3 fullShare x2 ∗ owns (c : Thread nD τ) a4 fullShare x3
        ∗ (∃ d, owns (c : Thread nD τ) a5 fullShare d) ∗ (∃ d, owns (c : Thread nD τ) a6 fullShare d)
        ∗ (iprop(owns (c : Thread nD τ) a1 fullShare x0 ∗ owns (c : Thread nD τ) a2 fullShare x1
              ∗ owns (c : Thread nD τ) a3 fullShare x2 ∗ owns (c : Thread nD τ) a4 fullShare x3
              ∗ owns (c : Thread nD τ) a5 fullShare (out0_4 x0 x1 x2)
              ∗ owns (c : Thread nD τ) a6 fullShare (out0_5 x0 x1 x2 x3)) -∗ K ⟨⟩))
      ⊢ wp frame (wpE (defs₀ (F := F)) Variants.none c none) E (cc0__init_kernel i a1 h1 a2 h2 a3 h3 a4 h4 a5 h5 a6 h6) K := by
  simp only [cc0__init_kernel_eq_skeleton]; unfold cc0__init_kernel_skel
  unfold owns
  iintro ⟨⟨%f0, %hf0, H0⟩, ⟨%f1, %hf1, H1⟩, ⟨%f2, %hf2, H2⟩, ⟨%f3, %hf3, H3⟩, ⟨%d4, %f4, -, H4⟩, ⟨%d5, %f5, -, H5⟩, Hk⟩
  subst hf0; subst hf1; subst hf2; subst hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists _; isplitr
    swap; · iexact H4
    ipureintro
    exact View.read_writes_eq_canon _ _ _ (cover0_4 _)
  iexists _; isplitr
  swap; · iexact H5
  ipureintro
  exact View.read_writes_eq_canon _ _ _ (cover0_5 _)

theorem body_obligation0 (c : Dev nD) : BodyObligation (dat0 (F := F) V c) (defs₀ (F := F)) Variants.none () Set.univ := fun t => by
  rw [bigSep_W0, bigSep_W0]
  simp only [before0_0, before0_1, before0_2, before0_3]
  rewrite [show (dat0 V c).Φ t.succ = (dat0 V c).Φ t.castSucc from rfl,
    show (dat0 V c).owesAt () t.succ = (dat0 V c).owesAt () t.castSucc from rfl,
    after0_0, after0_1, after0_2, after0_3, after0_4, after0_5]
  iintro ⟨HΦ, Ho, ⟨%d0, H0⟩, ⟨%d1, H1⟩, ⟨%d2, H2⟩, ⟨%d3, H3⟩, ⟨%d4, H4⟩, ⟨%d5, H5⟩⟩
  iapply (sound_kernel0 c Set.univ (grid0.coords t) _ (hstage0_0 _) _ (hstage0_1 _) _ (hstage0_2 _) _ (hstage0_3 _) _ (hstage0_4 _) _ (hstage0_5 _)
    (iblk0 V c 0 t) (iblk0 V c 1 t) (iblk0 V c 2 t) (iblk0 V c 3 t) _)
  isplitl [H0]; · iexact H0
  isplitl [H1]; · iexact H1
  isplitl [H2]; · iexact H2
  isplitl [H3]; · iexact H3
  isplitl [H4]; · iexists _; iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

end Cert.Kernel.Hand

end
-- ==== Proof.KStep.lean ====
import proofs.«420008_j32530082300305_1_alg».proof.Proof.Gen.Kernel.Launch
import proofs.«420008_j32530082300305_1_alg».proof.Proof.Gen.Kernel.Skeleton
import proofs.«420008_j32530082300305_1_alg».proof.Proof.Gen.Kernel.Points
import Idealize.ShloMosaic.Lib.Pipeline.FrameBody
import Idealize.ShloMosaic.Lib.Pipeline.Value
import Idealize.ShloMosaic.Lib.Tactic

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

abbrev stepCond (i : grid1.Coords) : Prop :=
  (Scalar.cmpi .ne (Scalar.extui (Scalar.cmpi .eq (BitVec.ofNat 32 (i 0).val) 0#32)) 0#32) = 1#1

theorem stepCond_iff : ∀ t : Fin grid1.N, stepCond (grid1.coords t) ↔ t.val % 50 = 0 := by decide +kernel

theorem zeros2 : (![0, 0] : Fin 2 → Nat) = fun _ => 0 := by funext a; fin_cases a <;> rfl

set_option maxHeartbeats 1000000 in
-- One run of the step kernel's body: the output block, reset first where the grid coordinate is zero, gains this row block's product.
theorem stepKernel (c : Dev nD) (E : Set ℕ) (i : grid1.Coords)
    (arg1 : Memref sig .tc .vmem S2000x64 .f32) (harg1 : arg1.IsWhole) (arg2 : Memref sig .tc .vmem S64x128 .f32) (harg2 : arg2.IsWhole)
    (arg3 : Memref sig .tc .vmem S2000x128 .f32) (harg3 : arg3.IsWhole) (arg4 : Memref sig .tc .vmem S2000x1 .i32) (harg4 : arg4.IsWhole)
    (arg5 : Memref sig .tc .vmem S512x128 .f32) (harg5 : arg5.IsWhole)
    (x : Vec F S2000x64 .f32) (z : Vec F S64x128 .f32) (zx : Vec F S2000x128 .f32) (g : Vec F S2000x1 .i32) (d : Vec F S512x128 .f32) (K : PUnit → sProp 𝕄) :
    iprop(owns (c : Thread nD τ) arg1 fullShare x ∗ owns (c : Thread nD τ) arg2 fullShare z ∗ owns (c : Thread nD τ) arg3 fullShare zx
        ∗ owns (c : Thread nD τ) arg4 fullShare g ∗ owns (c : Thread nD τ) arg5 fullShare d
        ∗ (iprop(owns (c : Thread nD τ) arg1 fullShare x ∗ owns (c : Thread nD τ) arg2 fullShare z ∗ owns (c : Thread nD τ) arg3 fullShare zx
        ∗ owns (c : Thread nD τ) arg4 fullShare g ∗ owns (c : Thread nD τ) arg5 fullShare (k1_pay2 x z zx g (if stepCond i then k1_pay1 (F := F) else d))) -∗ K ⟨⟩))
      ⊢ wp frame (wpE (defs₀ (F := F)) Variants.none c none) E (cc1__step_kernel i arg1 harg1 arg2 harg2 arg3 harg3 arg4 harg4 arg5 harg5) K := by
  simp only [cc1__step_kernel_eq_skeleton]; unfold cc1__step_kernel_skel owns
  by_cases hc : stepCond i <;> [rw [if_pos hc]; rw [if_neg hc]] <;>
  (iintro ⟨⟨%f1, %hf1, H1⟩, ⟨%f2, %hf2, H2⟩, ⟨%f3, %hf3, H3⟩, ⟨%f4, %hf4, H4⟩, ⟨%f5, %hf5, H5⟩, Hk⟩
   subst hf1 hf2 hf3 hf4 hf5
   sl_exec (disch := first | exact hc)
   sl_step
   iapply Hk
   isplitl [H1]
   · iexists f1; isplitr; · ipureintro; rfl
     iexact H1
   isplitl [H2]
   · iexists f2; isplitr; · ipureintro; rfl
     iexact H2
   isplitl [H3]
   · iexists f3; isplitr; · ipureintro; rfl
     iexact H3
   isplitl [H4]
   · iexists f4; isplitr; · ipureintro; rfl
     iexact H4
   iexists _; isplitr
   swap; · iexact H5
   ipureintro
   sl_unfold_words
   rw [View.read_writes_eq_canon _ _ _ (fun y => ⟨_, List.mem_cons_self, View.mem_set_unit_zero zeros2 inb_S512x128_S512x128_0_0 y⟩)]
   rw [View.canon_cons_unit_zero (S := S512x128) zeros2]
   simp only [View.readAt_eq_ld, View.ld_unit_zero (S := S2000x64) zeros2, View.ld_unit_zero (S := S64x128) zeros2,
     View.ld_unit_zero (S := S2000x128) zeros2, View.ld_unit_zero (S := S2000x1) zeros2,
     View.ld_unit_zero (S := S512x128) zeros2, View.readCov_unit_zero (S := S512x128) _ zeros2])

end Cert.Kernel.Hand

end
-- ==== Proof.KReg1.lean ====
import proofs.«420008_j32530082300305_1_alg».proof.Proof.KStep

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

def step1 (x : Vec F S2000x64 .f32) (z : Vec F S64x128 .f32) (zx : Vec F S2000x128 .f32) (g : Vec F S2000x1 .i32)
    (prev : Vec F S512x128 .f32) : Vec F S512x128 .f32 := k1_pay2 x z zx g prev

def acc1 (c : Dev nD) : (n : ℕ) → n < cfg1.N → Vec F S512x128 .f32
  | 0, hn => step1 (iblk1 V c 0 ⟨0, hn⟩) (iblk1 V c 1 ⟨0, hn⟩) (iblk1 V c 2 ⟨0, hn⟩) (iblk1 V c 3 ⟨0, hn⟩) (k1_pay1 (F := F))
  | n + 1, hn => step1 (iblk1 V c 0 ⟨n + 1, hn⟩) (iblk1 V c 1 ⟨n + 1, hn⟩) (iblk1 V c 2 ⟨n + 1, hn⟩) (iblk1 V c 3 ⟨n + 1, hn⟩)
      (acc1 c n (Nat.lt_of_succ_lt hn))

theorem acc1_zero (c : Dev nD) (hn : 0 < cfg1.N) :
    acc1 V c 0 hn = step1 (iblk1 V c 0 ⟨0, hn⟩) (iblk1 V c 1 ⟨0, hn⟩) (iblk1 V c 2 ⟨0, hn⟩) (iblk1 V c 3 ⟨0, hn⟩) (k1_pay1 (F := F)) := rfl

theorem acc1_succ (c : Dev nD) (n : ℕ) (hn : n + 1 < cfg1.N) :
    acc1 V c (n + 1) hn = step1 (iblk1 V c 0 ⟨n + 1, hn⟩) (iblk1 V c 1 ⟨n + 1, hn⟩) (iblk1 V c 2 ⟨n + 1, hn⟩) (iblk1 V c 3 ⟨n + 1, hn⟩)
      (acc1 V c n (Nat.lt_of_succ_lt hn)) := rfl

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => acc1 V c t.val t.isLt
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = acc1 V c t.val t.isLt := by dsimp only [dat1]

theorem before1_0 (c : Dev nD) (t : Fin cfg1.N) (d) : (dat1 V c).before 0 t d = iblk1 V c 0 t :=
  (dat1 V c).before_in_eq_fetched 0 rfl (fun _ => rfl) (fun _ _ _ => rfl) (fun _ => rfl) t d
theorem before1_1 (c : Dev nD) (t : Fin cfg1.N) (d) : (dat1 V c).before 1 t d = iblk1 V c 1 t :=
  (dat1 V c).before_in_eq_fetched 1 rfl (fun _ => rfl) (fun _ _ _ => rfl) (fun _ => rfl) t d
theorem before1_2 (c : Dev nD) (t : Fin cfg1.N) (d) : (dat1 V c).before 2 t d = iblk1 V c 2 t :=
  (dat1 V c).before_in_eq_fetched 2 rfl (fun _ => rfl) (fun _ _ _ => rfl) (fun _ => rfl) t d
theorem before1_3 (c : Dev nD) (t : Fin cfg1.N) (d) : (dat1 V c).before 3 t d = iblk1 V c 3 t :=
  (dat1 V c).before_in_eq_fetched 3 rfl (fun _ => rfl) (fun _ _ _ => rfl) (fun _ => rfl) t d

theorem before1_4_later (c : Dev nD) (t : Fin cfg1.N) (h0 : ¬t.val % 50 = 0) (d) :
    (dat1 V c).before 4 t d = acc1 V c (t.val - 1) (Nat.lt_of_le_of_lt (Nat.sub_le _ _) t.isLt) := by
  have hN : t.val < 50 := lt_of_lt_of_eq t.isLt (show cfg1.N = 50 from N_1)
  rw [Dat.before_out_kept _ 4 rfl t (by omega) (Bool.eq_false_iff.mpr fun h => by have := (flush1_4 _).mp h; dsimp only at this; omega)
    (fun _ => rfl) (fun _ _ => rfl)]
  dsimp only [dat1]

theorem acc1_eq (c : Dev nD) (t : Fin cfg1.N) (d) :
    acc1 V c t.val t.isLt = k1_pay2 (iblk1 V c 0 t) (iblk1 V c 1 t) (iblk1 V c 2 t) (iblk1 V c 3 t)
      (if stepCond (grid1.coords t) then k1_pay1 (F := F) else (dat1 V c).before 4 t d) := by
  by_cases h0 : t.val % 50 = 0
  · rw [if_pos ((stepCond_iff t).mpr h0)]
    obtain ⟨n, hn⟩ := t
    have hN : n < 50 := lt_of_lt_of_eq hn (show cfg1.N = 50 from N_1)
    cases n with
    | zero => rfl
    | succ n => exact absurd h0 (by dsimp only; omega)
  · rw [if_neg fun h => h0 ((stepCond_iff t).mp h), before1_4_later V c t h0]
    obtain ⟨n, hn⟩ := t
    cases n with
    | zero => exact absurd (Nat.zero_mod _) h0
    | succ n => rfl

theorem body_obligation1 (c : Dev nD) : BodyObligation (dat1 (F := F) V c) (defs₀ (F := F)) Variants.none () Set.univ := fun t => by
  rw [bigSep_W1, bigSep_W1]
  simp only [before1_0, before1_1, before1_2, before1_3]
  rewrite [show (dat1 V c).Φ t.succ = (dat1 V c).Φ t.castSucc from rfl,
    show (dat1 V c).owesAt () t.succ = (dat1 V c).owesAt () t.castSucc from rfl,
    after1_0, after1_1, after1_2, after1_3, after1_4]
  iintro ⟨HΦ, Ho, ⟨%d0, H0⟩, ⟨%d1, H1⟩, ⟨%d2, H2⟩, ⟨%d3, H3⟩, ⟨%d4, H4⟩⟩
  rw [acc1_eq V c t d4]
  iapply (stepKernel c Set.univ (grid1.coords t) _ (hstage1_0 _) _ (hstage1_1 _) _ (hstage1_2 _) _ (hstage1_3 _) _ (hstage1_4 _)
    (iblk1 V c 0 t) (iblk1 V c 1 t) (iblk1 V c 2 t) (iblk1 V c 3 t) ((dat1 V c).before 4 t d4) _)
  isplitl [H0]; · iexact H0
  isplitl [H1]; · iexact H1
  isplitl [H2]; · iexact H2
  isplitl [H3]; · iexact H3
  isplitl [H4]; · iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

end Cert.Kernel.Hand

end
-- ==== Proof.KReg2.lean ====
import proofs.«420008_j32530082300305_1_alg».proof.Proof.KStep

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

def step2 (x : Vec F S2000x64 .f32) (z : Vec F S64x128 .f32) (zx : Vec F S2000x128 .f32) (g : Vec F S2000x1 .i32)
    (prev : Vec F S512x128 .f32) : Vec F S512x128 .f32 := k2_pay2 x z zx g prev

def acc2 (c : Dev nD) : (n : ℕ) → n < cfg2.N → Vec F S512x128 .f32
  | 0, hn => step2 (iblk2 V c 0 ⟨0, hn⟩) (iblk2 V c 1 ⟨0, hn⟩) (iblk2 V c 2 ⟨0, hn⟩) (iblk2 V c 3 ⟨0, hn⟩) (k2_pay1 (F := F))
  | n + 1, hn => step2 (iblk2 V c 0 ⟨n + 1, hn⟩) (iblk2 V c 1 ⟨n + 1, hn⟩) (iblk2 V c 2 ⟨n + 1, hn⟩) (iblk2 V c 3 ⟨n + 1, hn⟩)
      (acc2 c n (Nat.lt_of_succ_lt hn))

theorem acc2_zero (c : Dev nD) (hn : 0 < cfg2.N) :
    acc2 V c 0 hn = step2 (iblk2 V c 0 ⟨0, hn⟩) (iblk2 V c 1 ⟨0, hn⟩) (iblk2 V c 2 ⟨0, hn⟩) (iblk2 V c 3 ⟨0, hn⟩) (k2_pay1 (F := F)) := rfl

theorem acc2_succ (c : Dev nD) (n : ℕ) (hn : n + 1 < cfg2.N) :
    acc2 V c (n + 1) hn = step2 (iblk2 V c 0 ⟨n + 1, hn⟩) (iblk2 V c 1 ⟨n + 1, hn⟩) (iblk2 V c 2 ⟨n + 1, hn⟩) (iblk2 V c 3 ⟨n + 1, hn⟩)
      (acc2 V c n (Nat.lt_of_succ_lt hn)) := rfl

def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => acc2 V c t.val t.isLt
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = acc2 V c t.val t.isLt := by dsimp only [dat2]

theorem before2_0 (c : Dev nD) (t : Fin cfg2.N) (d) : (dat2 V c).before 0 t d = iblk2 V c 0 t :=
  (dat2 V c).before_in_eq_fetched 0 rfl (fun _ => rfl) (fun _ _ _ => rfl) (fun _ => rfl) t d
theorem before2_1 (c : Dev nD) (t : Fin cfg2.N) (d) : (dat2 V c).before 1 t d = iblk2 V c 1 t :=
  (dat2 V c).before_in_eq_fetched 1 rfl (fun _ => rfl) (fun _ _ _ => rfl) (fun _ => rfl) t d
theorem before2_2 (c : Dev nD) (t : Fin cfg2.N) (d) : (dat2 V c).before 2 t d = iblk2 V c 2 t :=
  (dat2 V c).before_in_eq_fetched 2 rfl (fun _ => rfl) (fun _ _ _ => rfl) (fun _ => rfl) t d
theorem before2_3 (c : Dev nD) (t : Fin cfg2.N) (d) : (dat2 V c).before 3 t d = iblk2 V c 3 t :=
  (dat2 V c).before_in_eq_fetched 3 rfl (fun _ => rfl) (fun _ _ _ => rfl) (fun _ => rfl) t d

theorem before2_4_later (c : Dev nD) (t : Fin cfg2.N) (h0 : ¬t.val % 50 = 0) (d) :
    (dat2 V c).before 4 t d = acc2 V c (t.val - 1) (Nat.lt_of_le_of_lt (Nat.sub_le _ _) t.isLt) := by
  have hN : t.val < 50 := lt_of_lt_of_eq t.isLt (show cfg2.N = 50 from N_2)
  rw [Dat.before_out_kept _ 4 rfl t (by omega) (Bool.eq_false_iff.mpr fun h => by have := (flush2_4 _).mp h; dsimp only at this; omega)
    (fun _ => rfl) (fun _ _ => rfl)]
  dsimp only [dat2]

theorem acc2_eq (c : Dev nD) (t : Fin cfg2.N) (d) :
    acc2 V c t.val t.isLt = k2_pay2 (iblk2 V c 0 t) (iblk2 V c 1 t) (iblk2 V c 2 t) (iblk2 V c 3 t)
      (if stepCond (grid2.coords t) then k2_pay1 (F := F) else (dat2 V c).before 4 t d) := by
  by_cases h0 : t.val % 50 = 0
  · rw [if_pos ((stepCond_iff t).mpr h0)]
    obtain ⟨n, hn⟩ := t
    have hN : n < 50 := lt_of_lt_of_eq hn (show cfg2.N = 50 from N_2)
    cases n with
    | zero => rfl
    | succ n => exact absurd h0 (by dsimp only; omega)
  · rw [if_neg fun h => h0 ((stepCond_iff t).mp h), before2_4_later V c t h0]
    obtain ⟨n, hn⟩ := t
    cases n with
    | zero => exact absurd (Nat.zero_mod _) h0
    | succ n => rfl

theorem body_obligation2 (c : Dev nD) : BodyObligation (dat2 (F := F) V c) (defs₀ (F := F)) Variants.none () Set.univ := fun t => by
  rw [bigSep_W2, bigSep_W2]
  simp only [before2_0, before2_1, before2_2, before2_3]
  rewrite [show (dat2 V c).Φ t.succ = (dat2 V c).Φ t.castSucc from rfl,
    show (dat2 V c).owesAt () t.succ = (dat2 V c).owesAt () t.castSucc from rfl,
    after2_0, after2_1, after2_2, after2_3, after2_4]
  iintro ⟨HΦ, Ho, ⟨%d0, H0⟩, ⟨%d1, H1⟩, ⟨%d2, H2⟩, ⟨%d3, H3⟩, ⟨%d4, H4⟩⟩
  rw [acc2_eq V c t d4]
  iapply (stepKernel c Set.univ (grid2.coords t) _ (hstage2_0 _) _ (hstage2_1 _) _ (hstage2_2 _) _ (hstage2_3 _) _ (hstage2_4 _)
    (iblk2 V c 0 t) (iblk2 V c 1 t) (iblk2 V c 2 t) (iblk2 V c 3 t) ((dat2 V c).before 4 t d4) _)
  isplitl [H0]; · iexact H0
  isplitl [H1]; · iexact H1
  isplitl [H2]; · iexact H2
  isplitl [H3]; · iexact H3
  isplitl [H4]; · iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

end Cert.Kernel.Hand

end
-- ==== Proof.KReg3.lean ====
import proofs.«420008_j32530082300305_1_alg».proof.Proof.KStep

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

def step3 (x : Vec F S2000x64 .f32) (z : Vec F S64x128 .f32) (zx : Vec F S2000x128 .f32) (g : Vec F S2000x1 .i32)
    (prev : Vec F S512x128 .f32) : Vec F S512x128 .f32 := k3_pay2 x z zx g prev

def acc3 (c : Dev nD) : (n : ℕ) → n < cfg3.N → Vec F S512x128 .f32
  | 0, hn => step3 (iblk3 V c 0 ⟨0, hn⟩) (iblk3 V c 1 ⟨0, hn⟩) (iblk3 V c 2 ⟨0, hn⟩) (iblk3 V c 3 ⟨0, hn⟩) (k3_pay1 (F := F))
  | n + 1, hn => step3 (iblk3 V c 0 ⟨n + 1, hn⟩) (iblk3 V c 1 ⟨n + 1, hn⟩) (iblk3 V c 2 ⟨n + 1, hn⟩) (iblk3 V c 3 ⟨n + 1, hn⟩)
      (acc3 c n (Nat.lt_of_succ_lt hn))

theorem acc3_zero (c : Dev nD) (hn : 0 < cfg3.N) :
    acc3 V c 0 hn = step3 (iblk3 V c 0 ⟨0, hn⟩) (iblk3 V c 1 ⟨0, hn⟩) (iblk3 V c 2 ⟨0, hn⟩) (iblk3 V c 3 ⟨0, hn⟩) (k3_pay1 (F := F)) := rfl

theorem acc3_succ (c : Dev nD) (n : ℕ) (hn : n + 1 < cfg3.N) :
    acc3 V c (n + 1) hn = step3 (iblk3 V c 0 ⟨n + 1, hn⟩) (iblk3 V c 1 ⟨n + 1, hn⟩) (iblk3 V c 2 ⟨n + 1, hn⟩) (iblk3 V c 3 ⟨n + 1, hn⟩)
      (acc3 V c n (Nat.lt_of_succ_lt hn)) := rfl

def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => iblk3 V c 3 t
    | ⟨4, _⟩ => acc3 V c t.val t.isLt
  Φ _ := Pipeline.ΦA spec3 c
  q _ := fullShare
  owed _ := 0

theorem A_eq3 (c : Dev nD) (w : Fin cfg3.W) : (dat3 V c).A w = V c (Pipeline.arrRef spec3 w) := by
  dsimp only [dat3]

theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) : (dat3 V c).after 3 t = iblk3 V c 3 t := by dsimp only [dat3]
theorem after3_4 (c : Dev nD) (t : Fin cfg3.N) : (dat3 V c).after 4 t = acc3 V c t.val t.isLt := by dsimp only [dat3]

theorem before3_0 (c : Dev nD) (t : Fin cfg3.N) (d) : (dat3 V c).before 0 t d = iblk3 V c 0 t :=
  (dat3 V c).before_in_eq_fetched 0 rfl (fun _ => rfl) (fun _ _ _ => rfl) (fun _ => rfl) t d
theorem before3_1 (c : Dev nD) (t : Fin cfg3.N) (d) : (dat3 V c).before 1 t d = iblk3 V c 1 t :=
  (dat3 V c).before_in_eq_fetched 1 rfl (fun _ => rfl) (fun _ _ _ => rfl) (fun _ => rfl) t d
theorem before3_2 (c : Dev nD) (t : Fin cfg3.N) (d) : (dat3 V c).before 2 t d = iblk3 V c 2 t :=
  (dat3 V c).before_in_eq_fetched 2 rfl (fun _ => rfl) (fun _ _ _ => rfl) (fun _ => rfl) t d
theorem before3_3 (c : Dev nD) (t : Fin cfg3.N) (d) : (dat3 V c).before 3 t d = iblk3 V c 3 t :=
  (dat3 V c).before_in_eq_fetched 3 rfl (fun _ => rfl) (fun _ _ _ => rfl) (fun _ => rfl) t d

theorem before3_4_later (c : Dev nD) (t : Fin cfg3.N) (h0 : ¬t.val % 50 = 0) (d) :
    (dat3 V c).before 4 t d = acc3 V c (t.val - 1) (Nat.lt_of_le_of_lt (Nat.sub_le _ _) t.isLt) := by
  have hN : t.val < 50 := lt_of_lt_of_eq t.isLt (show cfg3.N = 50 from N_3)
  rw [Dat.before_out_kept _ 4 rfl t (by omega) (Bool.eq_false_iff.mpr fun h => by have := (flush3_4 _).mp h; dsimp only at this; omega)
    (fun _ => rfl) (fun _ _ => rfl)]
  dsimp only [dat3]

theorem acc3_eq (c : Dev nD) (t : Fin cfg3.N) (d) :
    acc3 V c t.val t.isLt = k3_pay2 (iblk3 V c 0 t) (iblk3 V c 1 t) (iblk3 V c 2 t) (iblk3 V c 3 t)
      (if stepCond (grid3.coords t) then k3_pay1 (F := F) else (dat3 V c).before 4 t d) := by
  by_cases h0 : t.val % 50 = 0
  · rw [if_pos ((stepCond_iff t).mpr h0)]
    obtain ⟨n, hn⟩ := t
    have hN : n < 50 := lt_of_lt_of_eq hn (show cfg3.N = 50 from N_3)
    cases n with
    | zero => rfl
    | succ n => exact absurd h0 (by dsimp only; omega)
  · rw [if_neg fun h => h0 ((stepCond_iff t).mp h), before3_4_later V c t h0]
    obtain ⟨n, hn⟩ := t
    cases n with
    | zero => exact absurd (Nat.zero_mod _) h0
    | succ n => rfl

theorem body_obligation3 (c : Dev nD) : BodyObligation (dat3 (F := F) V c) (defs₀ (F := F)) Variants.none () Set.univ := fun t => by
  rw [bigSep_W3, bigSep_W3]
  simp only [before3_0, before3_1, before3_2, before3_3]
  rewrite [show (dat3 V c).Φ t.succ = (dat3 V c).Φ t.castSucc from rfl,
    show (dat3 V c).owesAt () t.succ = (dat3 V c).owesAt () t.castSucc from rfl,
    after3_0, after3_1, after3_2, after3_3, after3_4]
  iintro ⟨HΦ, Ho, ⟨%d0, H0⟩, ⟨%d1, H1⟩, ⟨%d2, H2⟩, ⟨%d3, H3⟩, ⟨%d4, H4⟩⟩
  rw [acc3_eq V c t d4]
  iapply (stepKernel c Set.univ (grid3.coords t) _ (hstage3_0 _) _ (hstage3_1 _) _ (hstage3_2 _) _ (hstage3_3 _) _ (hstage3_4 _)
    (iblk3 V c 0 t) (iblk3 V c 1 t) (iblk3 V c 2 t) (iblk3 V c 3 t) ((dat3 V c).before 4 t d4) _)
  isplitl [H0]; · iexact H0
  isplitl [H1]; · iexact H1
  isplitl [H2]; · iexact H2
  isplitl [H3]; · iexact H3
  isplitl [H4]; · iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

end Cert.Kernel.Hand

end
-- ==== Proof.KFrame.lean ====
import proofs.«420008_j32530082300305_1_alg».proof.Proof.Gen.Kernel.Regions
import proofs.«420008_j32530082300305_1_alg».proof.Proof.KReg0
import proofs.«420008_j32530082300305_1_alg».proof.Proof.KReg1
import proofs.«420008_j32530082300305_1_alg».proof.Proof.KReg2
import proofs.«420008_j32530082300305_1_alg».proof.Proof.KReg3
import Idealize.ShloMosaic.Lib.Pipeline.RegionsLoop
import Idealize.ShloMosaic.Lib.Pipeline.FrameSuffix

noncomputable section

namespace Cert.Kernel.Hand

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation RegionSeg)

variable {F : FTy → Type} [FloatOps F]

local notation "𝕄" => MT nD τ sig Unit (Elt F) ℕ (UR sig nD τ) ℕ

variable (m : (ℓ : Loc nD τ sig) → Buf (Elt F) ℓ)

-- The buffers between the regions: after a region its arrays hold their final contents, every other buffer what it held.
abbrev B3 : (c : Dev nD) → (b : Ref sig .tc) → Buf (Elt F) ((c : Thread nD τ).loc b) := fun c b => V3 m c b
def W4 (c : Dev nD) : Valuation τ sig (Elt F) :=
  Pipeline.withArrays spec0 c (V3 m c) fun w => (dat0 (B3 m) c).arrAt w cfg0.N
def o4 : Outs (F := F) := fun _ r c => W4 m c r
abbrev B5 : (c : Dev nD) → (b : Ref sig .tc) → Buf (Elt F) ((c : Thread nD τ).loc b) := fun c b => V5 m (o4 m) c b
def W6 (c : Dev nD) : Valuation τ sig (Elt F) :=
  Pipeline.withArrays spec1 c (V5 m (o4 m) c) fun w => (dat1 (B5 m) c).arrAt w cfg1.N
def o6 : Outs (F := F) := fun J r c => if J = 4 then W4 m c r else W6 m c r
abbrev B6 : (c : Dev nD) → (b : Ref sig .tc) → Buf (Elt F) ((c : Thread nD τ).loc b) := fun c b => V6 m (o6 m) c b
def W7 (c : Dev nD) : Valuation τ sig (Elt F) :=
  Pipeline.withArrays spec2 c (V6 m (o6 m) c) fun w => (dat2 (B6 m) c).arrAt w cfg2.N
def o7 : Outs (F := F) := fun J r c => if J = 4 then W4 m c r else if J = 6 then W6 m c r else W7 m c r
abbrev B7 : (c : Dev nD) → (b : Ref sig .tc) → Buf (Elt F) ((c : Thread nD τ).loc b) := fun c b => V7 m (o7 m) c b
def W8 (c : Dev nD) : Valuation τ sig (Elt F) :=
  Pipeline.withArrays spec3 c (V7 m (o7 m) c) fun w => (dat3 (B7 m) c).arrAt w cfg3.N
def outs : Outs (F := F) := fun J r c =>
  if J = 4 then W4 m c r else if J = 6 then W6 m c r else if J = 7 then W7 m c r else W8 m c r

theorem V7_outs (c : Dev nD) : V7 m (outs m) c = V7 m (o7 m) c := rfl
theorem V6_outs (c : Dev nD) : V6 m (outs m) c = V6 m (o6 m) c := rfl
theorem V5_outs (c : Dev nD) : V5 m (outs m) c = V5 m (o4 m) c := rfl

def pdats : (p : Fin 4) → (c : Dev nD) → Dat τ (Elt F) Unit ℕ (UR sig nD τ) ℕ (cfgs p) c
  | ⟨0, _⟩ => fun c => dat0 (B3 m) c
  | ⟨1, _⟩ => fun c => dat1 (B5 m) c
  | ⟨2, _⟩ => fun c => dat2 (B6 m) c
  | ⟨3, _⟩ => fun c => dat3 (B7 m) c
abbrev 𝒱₀ : Variants := Variants.none
abbrev L : GSem nD τ sig → Finset Unit := fun _ => ∅
abbrev lv : GSem nD τ sig → Unit → ℕ := fun _ _ => 0
abbrev R (c : Dev nD) : sProp 𝕄 := iprop((∃ r, prngReg c r) ∗ ∃ W, owes (c : Thread nD τ) (0 : CellTallies nD τ sig Unit) W)

theorem outs_v18_0 (c : Dev nD) : outs m 4 main_v18_0 c = (dat0 (B3 m) c).arrAt 4 cfg0.N :=
  show W4 m c main_v18_0 = _ from Pipeline.withArrays_arr spec0 launch0.win.arr_inj c _ _ 4
theorem outs_v18_1 (c : Dev nD) : outs m 4 main_v18_1 c = (dat0 (B3 m) c).arrAt 5 cfg0.N :=
  show W4 m c main_v18_1 = _ from Pipeline.withArrays_arr spec0 launch0.win.arr_inj c _ _ 5
theorem outs_v59 (c : Dev nD) : outs m 6 main_v59 c = (dat1 (B5 m) c).arrAt 4 cfg1.N :=
  show W6 m c main_v59 = _ from Pipeline.withArrays_arr spec1 launch1.win.arr_inj c _ _ 4
theorem outs_v60 (c : Dev nD) : outs m 7 main_v60 c = (dat2 (B6 m) c).arrAt 4 cfg2.N :=
  show W7 m c main_v60 = _ from Pipeline.withArrays_arr spec2 launch2.win.arr_inj c _ _ 4
theorem outs_v61 (c : Dev nD) : outs m 8 main_v61 c = (dat3 (B7 m) c).arrAt 4 cfg3.N :=
  show W8 m c main_v61 = _ from Pipeline.withArrays_arr spec3 launch3.win.arr_inj c _ _ 4

end Cert.Kernel.Hand

end
-- ==== Proof.KSeg.lean ====
import proofs.«420008_j32530082300305_1_alg».proof.Proof.KFrame

noncomputable section

namespace Cert.Kernel.Hand

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation RegionSeg)

variable {F : FTy → Type} [FloatOps F]

variable (m : (ℓ : Loc nD τ sig) → Buf (Elt F) ℓ)

/-- One region as a segment of the run: from the buffers at `Vi` to the buffers at `Vo`, which differ from `Vi` only at the output arrays `O`, where they hold the region's final array contents. -/
def reg {p : Fin 4} (kit : Pipeline.LaunchFacts (nD := nD) (τ := τ) cfgs p) (Vi Vo : Dev nD → Valuation τ sig (Elt F)) {O : List (Ref sig .tc)}
    (hb : ∀ c, BodyObligation (pdats m p c) defs₀ Variants.none () Set.univ)
    (hΦ : ∀ c t, (pdats m p c).Φ t = Pipeline.ΦA (cfgs p).spec c) (hq : ∀ c w, (pdats m p c).q w = fullShare)
    (ho : ∀ c t, (pdats m p c).owed t = 0) (hr : ∀ c t, (pdats m p c).recorded t = Set.univ)
    (hA : ∀ c w, (pdats m p c).A w = Vi c (Pipeline.arrRef (cfgs p).spec w))
    (hin : ∀ w, Pipeline.arrRef (cfgs p).spec w ∉ O → ((cfgs p).win w).isOut = false)
    (hout : ∀ c, ∀ r ∈ O, Vo c r = Pipeline.withArrays (cfgs p).spec c (Vi c) ((pdats m p c).arrAt · (cfgs p).N) r)
    (hof : ∀ c, ∀ r ∉ O, Vo c r = Vi c r) :
    RegionSeg (pcfgs (F := F)) adm (pdats m) () defs₀ 𝒱₀ L lv p where
  win := kit.win.to₀
  block_pos := kit.block_pos
  stage_whole := kit.stage_whole
  K := PEmpty
  osem k := k.elim
  ho := Pipeline.OwnSemFacts.none _
  hbody c := (hb c).loose
  hwaits := Pipeline.hwaits_of_owed_zero _ _ _ _ L lv p ho
  pre c := iprop(StableHlo.held (c : Thread nD τ) (Pipeline.ucRefs τ sig) (Vi c) ∗ R c)
  post c := iprop(StableHlo.held (c : Thread nD τ) (Pipeline.ucRefs τ sig) (Vo c) ∗ R c)
  X c := iprop(∃ r, prngReg c r)
  Y c := iprop(∃ r, prngReg c r)
  Z c := Pipeline.unscopedRest (cfgs p).spec c fun b => Vi c b
  hentry c := by
    rw [Pipeline.ownSems0_none]
    have hsplit := Pipeline.arrays_of_unscopedBufs (p := p) (pcfgs (F := F)) adm (pdats m) kit.win kit.arr_whole c
      ((pdats m p c).share_full (hq c)) (fun b => Vi c b) (hA c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin Pipeline.Dat.bound; rw [ho, hr]
      icases HO with ⟨%W, HO⟩; iexists W; isplitr; · ipureintro; exact fun _ _ => Or.inl trivial
      iexact HO
    isplitl [Hp]; · iexact Hp
    iexact Hrest
  hin c := by
    rw [hΦ]; unfold Pipeline.ΦA; iintro ⟨Hp, -, Hr⟩
    isplitl [Hr]; · iexact Hr
    iexact Hp
  hout c := by rw [Pipeline.ownSems0_none, hΦ]; exact sep_comm.trans (sep_mono_r emp_sep_intro)
  hexit c := by
    have hF w : (pdats m p c).arrAt w (cfgs p).N = Vo c (Pipeline.arrRef (cfgs p).spec w) := by
      by_cases h : Pipeline.arrRef (cfgs p).spec w ∈ O
      · exact (Pipeline.withArrays_arr _ kit.win.arr_inj c _ _ w).symm.trans (hout c _ h).symm
      · exact ((pdats m p c).arrAt_in w (hin w h) _).trans ((hA c w).trans (hof c _ h).symm)
    have hjoin := Pipeline.unscopedBufs_of_arrays (p := p) (pcfgs (F := F)) adm (Ix := Unit) (Name := ℕ) (U := UR sig nD τ) (Lvl := ℕ)
      kit.win kit.arr_whole c (pdats m) ((pdats m p c).share_full (hq c)) (fun b => Vi c b) (fun b => Vo c b) _ hF fun b hb => by
        by_cases h : b ∈ O
        · exact (hout c b h).trans (Pipeline.withArrays_of_ne _ c _ _ b fun w e => hb (Finset.mem_image.mpr ⟨w, Finset.mem_univ _, e⟩))
        · exact hof c b h
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin; rw [ho]
    icases HO with ⟨%W, -, HO⟩; iexists W; iexact HO

def reg0 : RegionSeg (pcfgs (F := F)) adm (pdats m) () defs₀ 𝒱₀ L lv 0 :=
  reg m launch0 (V3 m) (V4 m (outs m)) (body_obligation0 _) (fun _ _ => rfl) (fun _ _ => rfl) (fun _ _ => rfl) (fun _ _ => rfl) (fun _ _ => rfl) (by decide)
    (fun c => List.forall_mem_cons.mpr ⟨(Function.update_of_ne (StableHlo.devRef_ne_of_ne (by decide)) ..).trans (Function.update_self ..), List.forall_mem_singleton.mpr (Function.update_self ..)⟩)
    (V4_of m (outs m))
def reg1 : RegionSeg (pcfgs (F := F)) adm (pdats m) () defs₀ 𝒱₀ L lv 1 :=
  reg m launch1 (V5 m (outs m)) (V6 m (outs m)) (body_obligation1 _) (fun _ _ => rfl) (fun _ _ => rfl) (fun _ _ => rfl) (fun _ _ => rfl) (fun _ _ => rfl) (by decide)
    (fun c => List.forall_mem_singleton.mpr (Function.update_self ..)) (V6_of m (outs m))
def reg2 : RegionSeg (pcfgs (F := F)) adm (pdats m) () defs₀ 𝒱₀ L lv 2 :=
  reg m launch2 (V6 m (outs m)) (V7 m (outs m)) (body_obligation2 _) (fun _ _ => rfl) (fun _ _ => rfl) (fun _ _ => rfl) (fun _ _ => rfl) (fun _ _ => rfl) (by decide)
    (fun c => List.forall_mem_singleton.mpr (Function.update_self ..)) (V7_of m (outs m))
def reg3 : RegionSeg (pcfgs (F := F)) adm (pdats m) () defs₀ 𝒱₀ L lv 3 :=
  reg m launch3 (V7 m (outs m)) (V8 m (outs m)) (body_obligation3 _) (fun _ _ => rfl) (fun _ _ => rfl) (fun _ _ => rfl) (fun _ _ => rfl) (fun _ _ => rfl) (by decide)
    (fun c => List.forall_mem_singleton.mpr (Function.update_self ..)) (V8_of m (outs m))

end Cert.Kernel.Hand

end
-- ==== Proof.KLaunch.lean ====
import proofs.«420008_j32530082300305_1_alg».proof.Proof.KSeg

noncomputable section

namespace Cert.Kernel.Hand

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation RegionSeg)

variable {F : FTy → Type} [FloatOps F]

local notation "𝕄" => MT nD τ sig Unit (Elt F) ℕ (UR sig nD τ) ℕ

variable (m : (ℓ : Loc nD τ sig) → Buf (Elt F) ℓ) (ρ : Dev nD → PrngReg)

theorem hu₀ (u : UR sig nD τ) : (ownU u : sProp 𝕄) ⊢ |={Set.univ}=> iprop(BI.own (emb₁ u) ∗ bigSep Finset.univ fun _ : Dev nD => (BI.emp : sProp 𝕄)) := by
  rw [BI.bigSep_emp_const]; exact .trans (sep_emp_intro (P := BI.own (emb₁ u))) fupd_intro

theorem hE0 : iprop((bigSep Finset.univ fun c : Dev nD => iprop(unscopedSems0 c ∗ owes (c : Thread nD τ) ((0 : Dev nD → CellTallies nD τ sig Unit) c) ∅
      ∗ Pipeline.launchCred (0 : Dev nD → CellTallies nD τ sig Unit) c ∗ prngReg c (ρ c) ∗ (BI.emp : sProp 𝕄))) ∗ levAts L lv)
    ⊢ (|={Set.univ}=> bigSep Finset.univ (R (F := F)) : sProp 𝕄) := by
  refine .trans (.trans sep_elim_left (bigSep_mono fun c _ => ?_)) fupd_intro
  change (_ : sProp 𝕄) ⊢ _
  iintro ⟨-, HO, -, Hp, -⟩
  isplitl [Hp]; · iexists _; iexact Hp
  iexists ∅; iexact HO

theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)) :=
  Gen.frame_cond (m := m) (EP := emb₁) (ι := ()) (𝒱₀ := 𝒱₀) (L := L) (lv := lv) (hL := fun _ _ => rfl) (ρ := ρ) (outs := outs m)
    (pdats := pdats m) (O₀ := 0) (G := fun _ => (BI.emp : sProp 𝕄)) (hu₀ := hu₀ _)
    (E := fun _ => R) (hE0 := hE0 ρ) (hE4 := fun _ => sep_elim_right)
    (R0 := reg0 m) (hpre0 := fun _ => .rfl) (hpost0 := fun _ => .rfl)
    (R1 := reg1 m) (hpre1 := fun _ => .rfl) (hpost1 := fun _ => .rfl)
    (R2 := reg2 m) (hpre2 := fun _ => .rfl) (hpost2 := fun _ => .rfl)
    (R3 := reg3 m) (hpre3 := fun _ => .rfl) (hpost3 := fun _ => .rfl)

end Cert.Kernel.Hand

end
-- ==== Proof.KIReg0.lean ====
import proofs.«420008_j32530082300305_1_alg».proof.Proof.Gen.KernelIdeal.Launch
import proofs.«420008_j32530082300305_1_alg».proof.Proof.Gen.KernelIdeal.Skeleton
import proofs.«420008_j32530082300305_1_alg».proof.Proof.Gen.KernelIdeal.Points
import Idealize.ShloMosaic.Lib.Pipeline.FrameBody
import Idealize.ShloMosaic.Lib.Tactic

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

abbrev rA : Rect S2000x128 := Rect.unit (s := S2000x128) ![0, 0] S2000x128.size inb_S2000x128_S2000x128_0_0
abbrev rB : Rect S128x64 := Rect.unit (s := S128x64) ![0, 0] S128x64.size inb_S128x64_S128x64_0_0
abbrev rC : Rect S1x64 := Rect.unit (s := S1x64) ![0, 0] S1x64.size inb_S1x64_S1x64_0_0
abbrev rD : Rect S64x128 := Rect.unit (s := S64x128) ![0, 0] S64x128.size inb_S64x128_S64x128_0_0
abbrev rE : Rect S2000x64 := Rect.unit (s := S2000x64) ![0, 0] S2000x64.size inb_S2000x64_S2000x64_0_0

def out0_4 (x0 : Vec F S2000x128 .f32) (x1 : Vec F S128x64 .f32) (x2 : Vec F S1x64 .f32) : Vec F S2000x64 .f32 :=
  View.canon [⟨rE, k0_pay1 (View.ld x0 rA) (View.ld x1 rB) (View.ld x2 rC)⟩]

def out0_5 (x0 : Vec F S2000x128 .f32) (x1 : Vec F S128x64 .f32) (x2 : Vec F S1x64 .f32) (x3 : Vec F S64x128 .f32) : Vec F S2000x128 .f32 :=
  View.canon [⟨rA, k0_pay2 (View.ld x0 rA) (View.ld x1 rB) (View.ld x2 rC) (View.ld x3 rD)⟩]

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => out0_4 (iblk0 V c 0 t) (iblk0 V c 1 t) (iblk0 V c 2 t)
    | ⟨5, _⟩ => out0_5 (iblk0 V c 0 t) (iblk0 V c 1 t) (iblk0 V c 2 t) (iblk0 V c 3 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) :
    (dat0 V c).after 4 t = out0_4 (iblk0 V c 0 t) (iblk0 V c 1 t) (iblk0 V c 2 t) := by dsimp only [dat0]
theorem after0_5 (c : Dev nD) (t : Fin cfg0.N) :
    (dat0 V c).after 5 t = out0_5 (iblk0 V c 0 t) (iblk0 V c 1 t) (iblk0 V c 2 t) (iblk0 V c 3 t) := by dsimp only [dat0]

theorem before0_0 (c : Dev nD) (t : Fin cfg0.N) (d) : (dat0 V c).before 0 t d = iblk0 V c 0 t :=
  (dat0 V c).before_in_eq_fetched 0 rfl (fun _ => rfl) (fun _ _ _ => rfl) (fun _ => rfl) t d

theorem before0_1 (c : Dev nD) (t : Fin cfg0.N) (d) : (dat0 V c).before 1 t d = iblk0 V c 1 t :=
  (dat0 V c).before_in_eq_fetched 1 rfl (fun _ => rfl) (fun _ _ _ => rfl) (fun _ => rfl) t d

theorem before0_2 (c : Dev nD) (t : Fin cfg0.N) (d) : (dat0 V c).before 2 t d = iblk0 V c 2 t :=
  (dat0 V c).before_in_eq_fetched 2 rfl (fun _ => rfl) (fun _ _ _ => rfl) (fun _ => rfl) t d

theorem before0_3 (c : Dev nD) (t : Fin cfg0.N) (d) : (dat0 V c).before 3 t d = iblk0 V c 3 t :=
  (dat0 V c).before_in_eq_fetched 3 rfl (fun _ => rfl) (fun _ _ _ => rfl) (fun _ => rfl) t d

theorem cover0_4 (p0 : Vec F S2000x64 .f32) (y : S2000x64.Idx) :
    ∃ pc ∈ ([⟨rE, p0⟩] : List (View.Piece (Elt F) S2000x64 .f32)), y ∈ pc.1.set :=
  View.cover_of_tiled [⟨rE, p0⟩] S2000x64.size (by rfl) y

theorem cover0_5 (p0 : Vec F S2000x128 .f32) (y : S2000x128.Idx) :
    ∃ pc ∈ ([⟨rA, p0⟩] : List (View.Piece (Elt F) S2000x128 .f32)), y ∈ pc.1.set :=
  View.cover_of_tiled [⟨rA, p0⟩] S2000x128.size (by rfl) y

theorem sound_kernel0 (c : Dev nD) (E : Set ℕ) (i : grid0.Coords)
    (a1 : Memref sig .tc .vmem S2000x128 .f32) (h1 : a1.IsWhole) (a2 : Memref sig .tc .vmem S128x64 .f32) (h2 : a2.IsWhole)
    (a3 : Memref sig .tc .vmem S1x64 .f32) (h3 : a3.IsWhole) (a4 : Memref sig .tc .vmem S64x128 .f32) (h4 : a4.IsWhole)
    (a5 : Memref sig .tc .vmem S2000x64 .f32) (h5 : a5.IsWhole) (a6 : Memref sig .tc .vmem S2000x128 .f32) (h6 : a6.IsWhole)
    (x0 : Vec F S2000x128 .f32) (x1 : Vec F S128x64 .f32) (x2 : Vec F S1x64 .f32) (x3 : Vec F S64x128 .f32)
    (K : PUnit → sProp 𝕄) :
    iprop(owns (c : Thread nD τ) a1 fullShare x0 ∗ owns (c : Thread nD τ) a2 fullShare x1
        ∗ owns (c : Thread nD τ) a3 fullShare x2 ∗ owns (c : Thread nD τ) a4 fullShare x3
        ∗ (∃ d, owns (c : Thread nD τ) a5 fullShare d) ∗ (∃ d, owns (c : Thread nD τ) a6 fullShare d)
        ∗ (iprop(owns (c : Thread nD τ) a1 fullShare x0 ∗ owns (c : Thread nD τ) a2 fullShare x1
              ∗ owns (c : Thread nD τ) a3 fullShare x2 ∗ owns (c : Thread nD τ) a4 fullShare x3
              ∗ owns (c : Thread nD τ) a5 fullShare (out0_4 x0 x1 x2)
              ∗ owns (c : Thread nD τ) a6 fullShare (out0_5 x0 x1 x2 x3)) -∗ K ⟨⟩))
      ⊢ wp frame (wpE (defs₀ (F := F)) Variants.none c none) E (cc0__init_kernel i a1 h1 a2 h2 a3 h3 a4 h4 a5 h5 a6 h6) K := by
  simp only [cc0__init_kernel_eq_skeleton]; unfold cc0__init_kernel_skel
  unfold owns
  iintro ⟨⟨%f0, %hf0, H0⟩, ⟨%f1, %hf1, H1⟩, ⟨%f2, %hf2, H2⟩, ⟨%f3, %hf3, H3⟩, ⟨%d4, %f4, -, H4⟩, ⟨%d5, %f5, -, H5⟩, Hk⟩
  subst hf0; subst hf1; subst hf2; subst hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists _; isplitr
    swap; · iexact H4
    ipureintro
    exact View.read_writes_eq_canon _ _ _ (cover0_4 _)
  iexists _; isplitr
  swap; · iexact H5
  ipureintro
  exact View.read_writes_eq_canon _ _ _ (cover0_5 _)

theorem body_obligation0 (c : Dev nD) : BodyObligation (dat0 (F := F) V c) (defs₀ (F := F)) Variants.none () Set.univ := fun t => by
  rw [bigSep_W0, bigSep_W0]
  simp only [before0_0, before0_1, before0_2, before0_3]
  rewrite [show (dat0 V c).Φ t.succ = (dat0 V c).Φ t.castSucc from rfl,
    show (dat0 V c).owesAt () t.succ = (dat0 V c).owesAt () t.castSucc from rfl,
    after0_0, after0_1, after0_2, after0_3, after0_4, after0_5]
  iintro ⟨HΦ, Ho, ⟨%d0, H0⟩, ⟨%d1, H1⟩, ⟨%d2, H2⟩, ⟨%d3, H3⟩, ⟨%d4, H4⟩, ⟨%d5, H5⟩⟩
  iapply (sound_kernel0 c Set.univ (grid0.coords t) _ (hstage0_0 _) _ (hstage0_1 _) _ (hstage0_2 _) _ (hstage0_3 _) _ (hstage0_4 _) _ (hstage0_5 _)
    (iblk0 V c 0 t) (iblk0 V c 1 t) (iblk0 V c 2 t) (iblk0 V c 3 t) _)
  isplitl [H0]; · iexact H0
  isplitl [H1]; · iexact H1
  isplitl [H2]; · iexact H2
  isplitl [H3]; · iexact H3
  isplitl [H4]; · iexists _; iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

end Cert.KernelIdeal.Hand

end
-- ==== Proof.KIStep.lean ====
import proofs.«420008_j32530082300305_1_alg».proof.Proof.Gen.KernelIdeal.Launch
import proofs.«420008_j32530082300305_1_alg».proof.Proof.Gen.KernelIdeal.Skeleton
import proofs.«420008_j32530082300305_1_alg».proof.Proof.Gen.KernelIdeal.Points
import Idealize.ShloMosaic.Lib.Pipeline.FrameBody
import Idealize.ShloMosaic.Lib.Pipeline.Value
import Idealize.ShloMosaic.Lib.Tactic

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

abbrev stepCond (i : grid1.Coords) : Prop :=
  (Scalar.cmpi .ne (Scalar.extui (Scalar.cmpi .eq (BitVec.ofNat 32 (i 0).val) 0#32)) 0#32) = 1#1

theorem stepCond_iff : ∀ t : Fin grid1.N, stepCond (grid1.coords t) ↔ t.val % 50 = 0 := by decide +kernel

theorem zeros2 : (![0, 0] : Fin 2 → Nat) = fun _ => 0 := by funext a; fin_cases a <;> rfl

set_option maxHeartbeats 1000000 in
-- One run of the step kernel's body: the output block, reset first where the grid coordinate is zero, gains this row block's product.
theorem stepKernel (c : Dev nD) (E : Set ℕ) (i : grid1.Coords)
    (arg1 : Memref sig .tc .vmem S2000x64 .f32) (harg1 : arg1.IsWhole) (arg2 : Memref sig .tc .vmem S64x128 .f32) (harg2 : arg2.IsWhole)
    (arg3 : Memref sig .tc .vmem S2000x128 .f32) (harg3 : arg3.IsWhole) (arg4 : Memref sig .tc .vmem S2000x1 .i32) (harg4 : arg4.IsWhole)
    (arg5 : Memref sig .tc .vmem S512x128 .f32) (harg5 : arg5.IsWhole)
    (x : Vec F S2000x64 .f32) (z : Vec F S64x128 .f32) (zx : Vec F S2000x128 .f32) (g : Vec F S2000x1 .i32) (d : Vec F S512x128 .f32) (K : PUnit → sProp 𝕄) :
    iprop(owns (c : Thread nD τ) arg1 fullShare x ∗ owns (c : Thread nD τ) arg2 fullShare z ∗ owns (c : Thread nD τ) arg3 fullShare zx
        ∗ owns (c : Thread nD τ) arg4 fullShare g ∗ owns (c : Thread nD τ) arg5 fullShare d
        ∗ (iprop(owns (c : Thread nD τ) arg1 fullShare x ∗ owns (c : Thread nD τ) arg2 fullShare z ∗ owns (c : Thread nD τ) arg3 fullShare zx
        ∗ owns (c : Thread nD τ) arg4 fullShare g ∗ owns (c : Thread nD τ) arg5 fullShare (k1_pay2 x z zx g (if stepCond i then k1_pay1 (F := F) else d))) -∗ K ⟨⟩))
      ⊢ wp frame (wpE (defs₀ (F := F)) Variants.none c none) E (cc1__step_kernel i arg1 harg1 arg2 harg2 arg3 harg3 arg4 harg4 arg5 harg5) K := by
  simp only [cc1__step_kernel_eq_skeleton]; unfold cc1__step_kernel_skel owns
  by_cases hc : stepCond i <;> [rw [if_pos hc]; rw [if_neg hc]] <;>
  (iintro ⟨⟨%f1, %hf1, H1⟩, ⟨%f2, %hf2, H2⟩, ⟨%f3, %hf3, H3⟩, ⟨%f4, %hf4, H4⟩, ⟨%f5, %hf5, H5⟩, Hk⟩
   subst hf1 hf2 hf3 hf4 hf5
   sl_exec (disch := first | exact hc)
   sl_step
   iapply Hk
   isplitl [H1]
   · iexists f1; isplitr; · ipureintro; rfl
     iexact H1
   isplitl [H2]
   · iexists f2; isplitr; · ipureintro; rfl
     iexact H2
   isplitl [H3]
   · iexists f3; isplitr; · ipureintro; rfl
     iexact H3
   isplitl [H4]
   · iexists f4; isplitr; · ipureintro; rfl
     iexact H4
   iexists _; isplitr
   swap; · iexact H5
   ipureintro
   sl_unfold_words
   rw [View.read_writes_eq_canon _ _ _ (fun y => ⟨_, List.mem_cons_self, View.mem_set_unit_zero zeros2 inb_S512x128_S512x128_0_0 y⟩)]
   rw [View.canon_cons_unit_zero (S := S512x128) zeros2]
   simp only [View.readAt_eq_ld, View.ld_unit_zero (S := S2000x64) zeros2, View.ld_unit_zero (S := S64x128) zeros2,
     View.ld_unit_zero (S := S2000x128) zeros2, View.ld_unit_zero (S := S2000x1) zeros2,
     View.ld_unit_zero (S := S512x128) zeros2, View.readCov_unit_zero (S := S512x128) _ zeros2])

end Cert.KernelIdeal.Hand

end
-- ==== Proof.KIReg1.lean ====
import proofs.«420008_j32530082300305_1_alg».proof.Proof.KIStep

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

def step1 (x : Vec F S2000x64 .f32) (z : Vec F S64x128 .f32) (zx : Vec F S2000x128 .f32) (g : Vec F S2000x1 .i32)
    (prev : Vec F S512x128 .f32) : Vec F S512x128 .f32 := k1_pay2 x z zx g prev

def acc1 (c : Dev nD) : (n : ℕ) → n < cfg1.N → Vec F S512x128 .f32
  | 0, hn => step1 (iblk1 V c 0 ⟨0, hn⟩) (iblk1 V c 1 ⟨0, hn⟩) (iblk1 V c 2 ⟨0, hn⟩) (iblk1 V c 3 ⟨0, hn⟩) (k1_pay1 (F := F))
  | n + 1, hn => step1 (iblk1 V c 0 ⟨n + 1, hn⟩) (iblk1 V c 1 ⟨n + 1, hn⟩) (iblk1 V c 2 ⟨n + 1, hn⟩) (iblk1 V c 3 ⟨n + 1, hn⟩)
      (acc1 c n (Nat.lt_of_succ_lt hn))

theorem acc1_zero (c : Dev nD) (hn : 0 < cfg1.N) :
    acc1 V c 0 hn = step1 (iblk1 V c 0 ⟨0, hn⟩) (iblk1 V c 1 ⟨0, hn⟩) (iblk1 V c 2 ⟨0, hn⟩) (iblk1 V c 3 ⟨0, hn⟩) (k1_pay1 (F := F)) := rfl

theorem acc1_succ (c : Dev nD) (n : ℕ) (hn : n + 1 < cfg1.N) :
    acc1 V c (n + 1) hn = step1 (iblk1 V c 0 ⟨n + 1, hn⟩) (iblk1 V c 1 ⟨n + 1, hn⟩) (iblk1 V c 2 ⟨n + 1, hn⟩) (iblk1 V c 3 ⟨n + 1, hn⟩)
      (acc1 V c n (Nat.lt_of_succ_lt hn)) := rfl

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => acc1 V c t.val t.isLt
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = acc1 V c t.val t.isLt := by dsimp only [dat1]

theorem before1_0 (c : Dev nD) (t : Fin cfg1.N) (d) : (dat1 V c).before 0 t d = iblk1 V c 0 t :=
  (dat1 V c).before_in_eq_fetched 0 rfl (fun _ => rfl) (fun _ _ _ => rfl) (fun _ => rfl) t d
theorem before1_1 (c : Dev nD) (t : Fin cfg1.N) (d) : (dat1 V c).before 1 t d = iblk1 V c 1 t :=
  (dat1 V c).before_in_eq_fetched 1 rfl (fun _ => rfl) (fun _ _ _ => rfl) (fun _ => rfl) t d
theorem before1_2 (c : Dev nD) (t : Fin cfg1.N) (d) : (dat1 V c).before 2 t d = iblk1 V c 2 t :=
  (dat1 V c).before_in_eq_fetched 2 rfl (fun _ => rfl) (fun _ _ _ => rfl) (fun _ => rfl) t d
theorem before1_3 (c : Dev nD) (t : Fin cfg1.N) (d) : (dat1 V c).before 3 t d = iblk1 V c 3 t :=
  (dat1 V c).before_in_eq_fetched 3 rfl (fun _ => rfl) (fun _ _ _ => rfl) (fun _ => rfl) t d

theorem before1_4_later (c : Dev nD) (t : Fin cfg1.N) (h0 : ¬t.val % 50 = 0) (d) :
    (dat1 V c).before 4 t d = acc1 V c (t.val - 1) (Nat.lt_of_le_of_lt (Nat.sub_le _ _) t.isLt) := by
  have hN : t.val < 50 := lt_of_lt_of_eq t.isLt (show cfg1.N = 50 from N_1)
  rw [Dat.before_out_kept _ 4 rfl t (by omega) (Bool.eq_false_iff.mpr fun h => by have := (flush1_4 _).mp h; dsimp only at this; omega)
    (fun _ => rfl) (fun _ _ => rfl)]
  dsimp only [dat1]

theorem acc1_eq (c : Dev nD) (t : Fin cfg1.N) (d) :
    acc1 V c t.val t.isLt = k1_pay2 (iblk1 V c 0 t) (iblk1 V c 1 t) (iblk1 V c 2 t) (iblk1 V c 3 t)
      (if stepCond (grid1.coords t) then k1_pay1 (F := F) else (dat1 V c).before 4 t d) := by
  by_cases h0 : t.val % 50 = 0
  · rw [if_pos ((stepCond_iff t).mpr h0)]
    obtain ⟨n, hn⟩ := t
    have hN : n < 50 := lt_of_lt_of_eq hn (show cfg1.N = 50 from N_1)
    cases n with
    | zero => rfl
    | succ n => exact absurd h0 (by dsimp only; omega)
  · rw [if_neg fun h => h0 ((stepCond_iff t).mp h), before1_4_later V c t h0]
    obtain ⟨n, hn⟩ := t
    cases n with
    | zero => exact absurd (Nat.zero_mod _) h0
    | succ n => rfl

theorem body_obligation1 (c : Dev nD) : BodyObligation (dat1 (F := F) V c) (defs₀ (F := F)) Variants.none () Set.univ := fun t => by
  rw [bigSep_W1, bigSep_W1]
  simp only [before1_0, before1_1, before1_2, before1_3]
  rewrite [show (dat1 V c).Φ t.succ = (dat1 V c).Φ t.castSucc from rfl,
    show (dat1 V c).owesAt () t.succ = (dat1 V c).owesAt () t.castSucc from rfl,
    after1_0, after1_1, after1_2, after1_3, after1_4]
  iintro ⟨HΦ, Ho, ⟨%d0, H0⟩, ⟨%d1, H1⟩, ⟨%d2, H2⟩, ⟨%d3, H3⟩, ⟨%d4, H4⟩⟩
  rw [acc1_eq V c t d4]
  iapply (stepKernel c Set.univ (grid1.coords t) _ (hstage1_0 _) _ (hstage1_1 _) _ (hstage1_2 _) _ (hstage1_3 _) _ (hstage1_4 _)
    (iblk1 V c 0 t) (iblk1 V c 1 t) (iblk1 V c 2 t) (iblk1 V c 3 t) ((dat1 V c).before 4 t d4) _)
  isplitl [H0]; · iexact H0
  isplitl [H1]; · iexact H1
  isplitl [H2]; · iexact H2
  isplitl [H3]; · iexact H3
  isplitl [H4]; · iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

end Cert.KernelIdeal.Hand

end
-- ==== Proof.KIReg2.lean ====
import proofs.«420008_j32530082300305_1_alg».proof.Proof.KIStep

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

def step2 (x : Vec F S2000x64 .f32) (z : Vec F S64x128 .f32) (zx : Vec F S2000x128 .f32) (g : Vec F S2000x1 .i32)
    (prev : Vec F S512x128 .f32) : Vec F S512x128 .f32 := k2_pay2 x z zx g prev

def acc2 (c : Dev nD) : (n : ℕ) → n < cfg2.N → Vec F S512x128 .f32
  | 0, hn => step2 (iblk2 V c 0 ⟨0, hn⟩) (iblk2 V c 1 ⟨0, hn⟩) (iblk2 V c 2 ⟨0, hn⟩) (iblk2 V c 3 ⟨0, hn⟩) (k2_pay1 (F := F))
  | n + 1, hn => step2 (iblk2 V c 0 ⟨n + 1, hn⟩) (iblk2 V c 1 ⟨n + 1, hn⟩) (iblk2 V c 2 ⟨n + 1, hn⟩) (iblk2 V c 3 ⟨n + 1, hn⟩)
      (acc2 c n (Nat.lt_of_succ_lt hn))

theorem acc2_zero (c : Dev nD) (hn : 0 < cfg2.N) :
    acc2 V c 0 hn = step2 (iblk2 V c 0 ⟨0, hn⟩) (iblk2 V c 1 ⟨0, hn⟩) (iblk2 V c 2 ⟨0, hn⟩) (iblk2 V c 3 ⟨0, hn⟩) (k2_pay1 (F := F)) := rfl

theorem acc2_succ (c : Dev nD) (n : ℕ) (hn : n + 1 < cfg2.N) :
    acc2 V c (n + 1) hn = step2 (iblk2 V c 0 ⟨n + 1, hn⟩) (iblk2 V c 1 ⟨n + 1, hn⟩) (iblk2 V c 2 ⟨n + 1, hn⟩) (iblk2 V c 3 ⟨n + 1, hn⟩)
      (acc2 V c n (Nat.lt_of_succ_lt hn)) := rfl

def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => acc2 V c t.val t.isLt
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = acc2 V c t.val t.isLt := by dsimp only [dat2]

theorem before2_0 (c : Dev nD) (t : Fin cfg2.N) (d) : (dat2 V c).before 0 t d = iblk2 V c 0 t :=
  (dat2 V c).before_in_eq_fetched 0 rfl (fun _ => rfl) (fun _ _ _ => rfl) (fun _ => rfl) t d
theorem before2_1 (c : Dev nD) (t : Fin cfg2.N) (d) : (dat2 V c).before 1 t d = iblk2 V c 1 t :=
  (dat2 V c).before_in_eq_fetched 1 rfl (fun _ => rfl) (fun _ _ _ => rfl) (fun _ => rfl) t d
theorem before2_2 (c : Dev nD) (t : Fin cfg2.N) (d) : (dat2 V c).before 2 t d = iblk2 V c 2 t :=
  (dat2 V c).before_in_eq_fetched 2 rfl (fun _ => rfl) (fun _ _ _ => rfl) (fun _ => rfl) t d
theorem before2_3 (c : Dev nD) (t : Fin cfg2.N) (d) : (dat2 V c).before 3 t d = iblk2 V c 3 t :=
  (dat2 V c).before_in_eq_fetched 3 rfl (fun _ => rfl) (fun _ _ _ => rfl) (fun _ => rfl) t d

theorem before2_4_later (c : Dev nD) (t : Fin cfg2.N) (h0 : ¬t.val % 50 = 0) (d) :
    (dat2 V c).before 4 t d = acc2 V c (t.val - 1) (Nat.lt_of_le_of_lt (Nat.sub_le _ _) t.isLt) := by
  have hN : t.val < 50 := lt_of_lt_of_eq t.isLt (show cfg2.N = 50 from N_2)
  rw [Dat.before_out_kept _ 4 rfl t (by omega) (Bool.eq_false_iff.mpr fun h => by have := (flush2_4 _).mp h; dsimp only at this; omega)
    (fun _ => rfl) (fun _ _ => rfl)]
  dsimp only [dat2]

theorem acc2_eq (c : Dev nD) (t : Fin cfg2.N) (d) :
    acc2 V c t.val t.isLt = k2_pay2 (iblk2 V c 0 t) (iblk2 V c 1 t) (iblk2 V c 2 t) (iblk2 V c 3 t)
      (if stepCond (grid2.coords t) then k2_pay1 (F := F) else (dat2 V c).before 4 t d) := by
  by_cases h0 : t.val % 50 = 0
  · rw [if_pos ((stepCond_iff t).mpr h0)]
    obtain ⟨n, hn⟩ := t
    have hN : n < 50 := lt_of_lt_of_eq hn (show cfg2.N = 50 from N_2)
    cases n with
    | zero => rfl
    | succ n => exact absurd h0 (by dsimp only; omega)
  · rw [if_neg fun h => h0 ((stepCond_iff t).mp h), before2_4_later V c t h0]
    obtain ⟨n, hn⟩ := t
    cases n with
    | zero => exact absurd (Nat.zero_mod _) h0
    | succ n => rfl

theorem body_obligation2 (c : Dev nD) : BodyObligation (dat2 (F := F) V c) (defs₀ (F := F)) Variants.none () Set.univ := fun t => by
  rw [bigSep_W2, bigSep_W2]
  simp only [before2_0, before2_1, before2_2, before2_3]
  rewrite [show (dat2 V c).Φ t.succ = (dat2 V c).Φ t.castSucc from rfl,
    show (dat2 V c).owesAt () t.succ = (dat2 V c).owesAt () t.castSucc from rfl,
    after2_0, after2_1, after2_2, after2_3, after2_4]
  iintro ⟨HΦ, Ho, ⟨%d0, H0⟩, ⟨%d1, H1⟩, ⟨%d2, H2⟩, ⟨%d3, H3⟩, ⟨%d4, H4⟩⟩
  rw [acc2_eq V c t d4]
  iapply (stepKernel c Set.univ (grid2.coords t) _ (hstage2_0 _) _ (hstage2_1 _) _ (hstage2_2 _) _ (hstage2_3 _) _ (hstage2_4 _)
    (iblk2 V c 0 t) (iblk2 V c 1 t) (iblk2 V c 2 t) (iblk2 V c 3 t) ((dat2 V c).before 4 t d4) _)
  isplitl [H0]; · iexact H0
  isplitl [H1]; · iexact H1
  isplitl [H2]; · iexact H2
  isplitl [H3]; · iexact H3
  isplitl [H4]; · iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

end Cert.KernelIdeal.Hand

end
-- ==== Proof.KIReg3.lean ====
import proofs.«420008_j32530082300305_1_alg».proof.Proof.KIStep

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

def step3 (x : Vec F S2000x64 .f32) (z : Vec F S64x128 .f32) (zx : Vec F S2000x128 .f32) (g : Vec F S2000x1 .i32)
    (prev : Vec F S512x128 .f32) : Vec F S512x128 .f32 := k3_pay2 x z zx g prev

def acc3 (c : Dev nD) : (n : ℕ) → n < cfg3.N → Vec F S512x128 .f32
  | 0, hn => step3 (iblk3 V c 0 ⟨0, hn⟩) (iblk3 V c 1 ⟨0, hn⟩) (iblk3 V c 2 ⟨0, hn⟩) (iblk3 V c 3 ⟨0, hn⟩) (k3_pay1 (F := F))
  | n + 1, hn => step3 (iblk3 V c 0 ⟨n + 1, hn⟩) (iblk3 V c 1 ⟨n + 1, hn⟩) (iblk3 V c 2 ⟨n + 1, hn⟩) (iblk3 V c 3 ⟨n + 1, hn⟩)
      (acc3 c n (Nat.lt_of_succ_lt hn))

theorem acc3_zero (c : Dev nD) (hn : 0 < cfg3.N) :
    acc3 V c 0 hn = step3 (iblk3 V c 0 ⟨0, hn⟩) (iblk3 V c 1 ⟨0, hn⟩) (iblk3 V c 2 ⟨0, hn⟩) (iblk3 V c 3 ⟨0, hn⟩) (k3_pay1 (F := F)) := rfl

theorem acc3_succ (c : Dev nD) (n : ℕ) (hn : n + 1 < cfg3.N) :
    acc3 V c (n + 1) hn = step3 (iblk3 V c 0 ⟨n + 1, hn⟩) (iblk3 V c 1 ⟨n + 1, hn⟩) (iblk3 V c 2 ⟨n + 1, hn⟩) (iblk3 V c 3 ⟨n + 1, hn⟩)
      (acc3 V c n (Nat.lt_of_succ_lt hn)) := rfl

def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => iblk3 V c 3 t
    | ⟨4, _⟩ => acc3 V c t.val t.isLt
  Φ _ := Pipeline.ΦA spec3 c
  q _ := fullShare
  owed _ := 0

theorem A_eq3 (c : Dev nD) (w : Fin cfg3.W) : (dat3 V c).A w = V c (Pipeline.arrRef spec3 w) := by
  dsimp only [dat3]

theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) : (dat3 V c).after 3 t = iblk3 V c 3 t := by dsimp only [dat3]
theorem after3_4 (c : Dev nD) (t : Fin cfg3.N) : (dat3 V c).after 4 t = acc3 V c t.val t.isLt := by dsimp only [dat3]

theorem before3_0 (c : Dev nD) (t : Fin cfg3.N) (d) : (dat3 V c).before 0 t d = iblk3 V c 0 t :=
  (dat3 V c).before_in_eq_fetched 0 rfl (fun _ => rfl) (fun _ _ _ => rfl) (fun _ => rfl) t d
theorem before3_1 (c : Dev nD) (t : Fin cfg3.N) (d) : (dat3 V c).before 1 t d = iblk3 V c 1 t :=
  (dat3 V c).before_in_eq_fetched 1 rfl (fun _ => rfl) (fun _ _ _ => rfl) (fun _ => rfl) t d
theorem before3_2 (c : Dev nD) (t : Fin cfg3.N) (d) : (dat3 V c).before 2 t d = iblk3 V c 2 t :=
  (dat3 V c).before_in_eq_fetched 2 rfl (fun _ => rfl) (fun _ _ _ => rfl) (fun _ => rfl) t d
theorem before3_3 (c : Dev nD) (t : Fin cfg3.N) (d) : (dat3 V c).before 3 t d = iblk3 V c 3 t :=
  (dat3 V c).before_in_eq_fetched 3 rfl (fun _ => rfl) (fun _ _ _ => rfl) (fun _ => rfl) t d

theorem before3_4_later (c : Dev nD) (t : Fin cfg3.N) (h0 : ¬t.val % 50 = 0) (d) :
    (dat3 V c).before 4 t d = acc3 V c (t.val - 1) (Nat.lt_of_le_of_lt (Nat.sub_le _ _) t.isLt) := by
  have hN : t.val < 50 := lt_of_lt_of_eq t.isLt (show cfg3.N = 50 from N_3)
  rw [Dat.before_out_kept _ 4 rfl t (by omega) (Bool.eq_false_iff.mpr fun h => by have := (flush3_4 _).mp h; dsimp only at this; omega)
    (fun _ => rfl) (fun _ _ => rfl)]
  dsimp only [dat3]

theorem acc3_eq (c : Dev nD) (t : Fin cfg3.N) (d) :
    acc3 V c t.val t.isLt = k3_pay2 (iblk3 V c 0 t) (iblk3 V c 1 t) (iblk3 V c 2 t) (iblk3 V c 3 t)
      (if stepCond (grid3.coords t) then k3_pay1 (F := F) else (dat3 V c).before 4 t d) := by
  by_cases h0 : t.val % 50 = 0
  · rw [if_pos ((stepCond_iff t).mpr h0)]
    obtain ⟨n, hn⟩ := t
    have hN : n < 50 := lt_of_lt_of_eq hn (show cfg3.N = 50 from N_3)
    cases n with
    | zero => rfl
    | succ n => exact absurd h0 (by dsimp only; omega)
  · rw [if_neg fun h => h0 ((stepCond_iff t).mp h), before3_4_later V c t h0]
    obtain ⟨n, hn⟩ := t
    cases n with
    | zero => exact absurd (Nat.zero_mod _) h0
    | succ n => rfl

theorem body_obligation3 (c : Dev nD) : BodyObligation (dat3 (F := F) V c) (defs₀ (F := F)) Variants.none () Set.univ := fun t => by
  rw [bigSep_W3, bigSep_W3]
  simp only [before3_0, before3_1, before3_2, before3_3]
  rewrite [show (dat3 V c).Φ t.succ = (dat3 V c).Φ t.castSucc from rfl,
    show (dat3 V c).owesAt () t.succ = (dat3 V c).owesAt () t.castSucc from rfl,
    after3_0, after3_1, after3_2, after3_3, after3_4]
  iintro ⟨HΦ, Ho, ⟨%d0, H0⟩, ⟨%d1, H1⟩, ⟨%d2, H2⟩, ⟨%d3, H3⟩, ⟨%d4, H4⟩⟩
  rw [acc3_eq V c t d4]
  iapply (stepKernel c Set.univ (grid3.coords t) _ (hstage3_0 _) _ (hstage3_1 _) _ (hstage3_2 _) _ (hstage3_3 _) _ (hstage3_4 _)
    (iblk3 V c 0 t) (iblk3 V c 1 t) (iblk3 V c 2 t) (iblk3 V c 3 t) ((dat3 V c).before 4 t d4) _)
  isplitl [H0]; · iexact H0
  isplitl [H1]; · iexact H1
  isplitl [H2]; · iexact H2
  isplitl [H3]; · iexact H3
  isplitl [H4]; · iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

end Cert.KernelIdeal.Hand

end
-- ==== Proof.KIFrame.lean ====
import proofs.«420008_j32530082300305_1_alg».proof.Proof.Gen.KernelIdeal.Regions
import proofs.«420008_j32530082300305_1_alg».proof.Proof.KIReg0
import proofs.«420008_j32530082300305_1_alg».proof.Proof.KIReg1
import proofs.«420008_j32530082300305_1_alg».proof.Proof.KIReg2
import proofs.«420008_j32530082300305_1_alg».proof.Proof.KIReg3
import Idealize.ShloMosaic.Lib.Pipeline.RegionsLoop
import Idealize.ShloMosaic.Lib.Pipeline.FrameSuffix

noncomputable section

namespace Cert.KernelIdeal.Hand

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation RegionSeg)

variable {F : FTy → Type} [FloatOps F]

local notation "𝕄" => MT nD τ sig Unit (Elt F) ℕ (UR sig nD τ) ℕ

variable (m : (ℓ : Loc nD τ sig) → Buf (Elt F) ℓ)

-- The buffers between the regions: after a region its arrays hold their final contents, every other buffer what it held.
abbrev B3 : (c : Dev nD) → (b : Ref sig .tc) → Buf (Elt F) ((c : Thread nD τ).loc b) := fun c b => V3 m c b
def W4 (c : Dev nD) : Valuation τ sig (Elt F) :=
  Pipeline.withArrays spec0 c (V3 m c) fun w => (dat0 (B3 m) c).arrAt w cfg0.N
def o4 : Outs (F := F) := fun _ r c => W4 m c r
abbrev B5 : (c : Dev nD) → (b : Ref sig .tc) → Buf (Elt F) ((c : Thread nD τ).loc b) := fun c b => V5 m (o4 m) c b
def W6 (c : Dev nD) : Valuation τ sig (Elt F) :=
  Pipeline.withArrays spec1 c (V5 m (o4 m) c) fun w => (dat1 (B5 m) c).arrAt w cfg1.N
def o6 : Outs (F := F) := fun J r c => if J = 4 then W4 m c r else W6 m c r
abbrev B6 : (c : Dev nD) → (b : Ref sig .tc) → Buf (Elt F) ((c : Thread nD τ).loc b) := fun c b => V6 m (o6 m) c b
def W7 (c : Dev nD) : Valuation τ sig (Elt F) :=
  Pipeline.withArrays spec2 c (V6 m (o6 m) c) fun w => (dat2 (B6 m) c).arrAt w cfg2.N
def o7 : Outs (F := F) := fun J r c => if J = 4 then W4 m c r else if J = 6 then W6 m c r else W7 m c r
abbrev B7 : (c : Dev nD) → (b : Ref sig .tc) → Buf (Elt F) ((c : Thread nD τ).loc b) := fun c b => V7 m (o7 m) c b
def W8 (c : Dev nD) : Valuation τ sig (Elt F) :=
  Pipeline.withArrays spec3 c (V7 m (o7 m) c) fun w => (dat3 (B7 m) c).arrAt w cfg3.N
def outs : Outs (F := F) := fun J r c =>
  if J = 4 then W4 m c r else if J = 6 then W6 m c r else if J = 7 then W7 m c r else W8 m c r

theorem V7_outs (c : Dev nD) : V7 m (outs m) c = V7 m (o7 m) c := rfl
theorem V6_outs (c : Dev nD) : V6 m (outs m) c = V6 m (o6 m) c := rfl
theorem V5_outs (c : Dev nD) : V5 m (outs m) c = V5 m (o4 m) c := rfl

def pdats : (p : Fin 4) → (c : Dev nD) → Dat τ (Elt F) Unit ℕ (UR sig nD τ) ℕ (cfgs p) c
  | ⟨0, _⟩ => fun c => dat0 (B3 m) c
  | ⟨1, _⟩ => fun c => dat1 (B5 m) c
  | ⟨2, _⟩ => fun c => dat2 (B6 m) c
  | ⟨3, _⟩ => fun c => dat3 (B7 m) c
abbrev 𝒱₀ : Variants := Variants.none
abbrev L : GSem nD τ sig → Finset Unit := fun _ => ∅
abbrev lv : GSem nD τ sig → Unit → ℕ := fun _ _ => 0
abbrev R (c : Dev nD) : sProp 𝕄 := iprop((∃ r, prngReg c r) ∗ ∃ W, owes (c : Thread nD τ) (0 : CellTallies nD τ sig Unit) W)

theorem outs_v18_0 (c : Dev nD) : outs m 4 main_v18_0 c = (dat0 (B3 m) c).arrAt 4 cfg0.N :=
  show W4 m c main_v18_0 = _ from Pipeline.withArrays_arr spec0 launch0.win.arr_inj c _ _ 4
theorem outs_v18_1 (c : Dev nD) : outs m 4 main_v18_1 c = (dat0 (B3 m) c).arrAt 5 cfg0.N :=
  show W4 m c main_v18_1 = _ from Pipeline.withArrays_arr spec0 launch0.win.arr_inj c _ _ 5
theorem outs_v59 (c : Dev nD) : outs m 6 main_v59 c = (dat1 (B5 m) c).arrAt 4 cfg1.N :=
  show W6 m c main_v59 = _ from Pipeline.withArrays_arr spec1 launch1.win.arr_inj c _ _ 4
theorem outs_v60 (c : Dev nD) : outs m 7 main_v60 c = (dat2 (B6 m) c).arrAt 4 cfg2.N :=
  show W7 m c main_v60 = _ from Pipeline.withArrays_arr spec2 launch2.win.arr_inj c _ _ 4
theorem outs_v61 (c : Dev nD) : outs m 8 main_v61 c = (dat3 (B7 m) c).arrAt 4 cfg3.N :=
  show W8 m c main_v61 = _ from Pipeline.withArrays_arr spec3 launch3.win.arr_inj c _ _ 4

end Cert.KernelIdeal.Hand

end
-- ==== Proof.KISeg.lean ====
import proofs.«420008_j32530082300305_1_alg».proof.Proof.KIFrame

noncomputable section

namespace Cert.KernelIdeal.Hand

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation RegionSeg)

variable {F : FTy → Type} [FloatOps F]

variable (m : (ℓ : Loc nD τ sig) → Buf (Elt F) ℓ)

/-- One region as a segment of the run: from the buffers at `Vi` to the buffers at `Vo`, which differ from `Vi` only at the output arrays `O`, where they hold the region's final array contents. -/
def reg {p : Fin 4} (kit : Pipeline.LaunchFacts (nD := nD) (τ := τ) cfgs p) (Vi Vo : Dev nD → Valuation τ sig (Elt F)) {O : List (Ref sig .tc)}
    (hb : ∀ c, BodyObligation (pdats m p c) defs₀ Variants.none () Set.univ)
    (hΦ : ∀ c t, (pdats m p c).Φ t = Pipeline.ΦA (cfgs p).spec c) (hq : ∀ c w, (pdats m p c).q w = fullShare)
    (ho : ∀ c t, (pdats m p c).owed t = 0) (hr : ∀ c t, (pdats m p c).recorded t = Set.univ)
    (hA : ∀ c w, (pdats m p c).A w = Vi c (Pipeline.arrRef (cfgs p).spec w))
    (hin : ∀ w, Pipeline.arrRef (cfgs p).spec w ∉ O → ((cfgs p).win w).isOut = false)
    (hout : ∀ c, ∀ r ∈ O, Vo c r = Pipeline.withArrays (cfgs p).spec c (Vi c) ((pdats m p c).arrAt · (cfgs p).N) r)
    (hof : ∀ c, ∀ r ∉ O, Vo c r = Vi c r) :
    RegionSeg (pcfgs (F := F)) adm (pdats m) () defs₀ 𝒱₀ L lv p where
  win := kit.win.to₀
  block_pos := kit.block_pos
  stage_whole := kit.stage_whole
  K := PEmpty
  osem k := k.elim
  ho := Pipeline.OwnSemFacts.none _
  hbody c := (hb c).loose
  hwaits := Pipeline.hwaits_of_owed_zero _ _ _ _ L lv p ho
  pre c := iprop(StableHlo.held (c : Thread nD τ) (Pipeline.ucRefs τ sig) (Vi c) ∗ R c)
  post c := iprop(StableHlo.held (c : Thread nD τ) (Pipeline.ucRefs τ sig) (Vo c) ∗ R c)
  X c := iprop(∃ r, prngReg c r)
  Y c := iprop(∃ r, prngReg c r)
  Z c := Pipeline.unscopedRest (cfgs p).spec c fun b => Vi c b
  hentry c := by
    rw [Pipeline.ownSems0_none]
    have hsplit := Pipeline.arrays_of_unscopedBufs (p := p) (pcfgs (F := F)) adm (pdats m) kit.win kit.arr_whole c
      ((pdats m p c).share_full (hq c)) (fun b => Vi c b) (hA c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin Pipeline.Dat.bound; rw [ho, hr]
      icases HO with ⟨%W, HO⟩; iexists W; isplitr; · ipureintro; exact fun _ _ => Or.inl trivial
      iexact HO
    isplitl [Hp]; · iexact Hp
    iexact Hrest
  hin c := by
    rw [hΦ]; unfold Pipeline.ΦA; iintro ⟨Hp, -, Hr⟩
    isplitl [Hr]; · iexact Hr
    iexact Hp
  hout c := by rw [Pipeline.ownSems0_none, hΦ]; exact sep_comm.trans (sep_mono_r emp_sep_intro)
  hexit c := by
    have hF w : (pdats m p c).arrAt w (cfgs p).N = Vo c (Pipeline.arrRef (cfgs p).spec w) := by
      by_cases h : Pipeline.arrRef (cfgs p).spec w ∈ O
      · exact (Pipeline.withArrays_arr _ kit.win.arr_inj c _ _ w).symm.trans (hout c _ h).symm
      · exact ((pdats m p c).arrAt_in w (hin w h) _).trans ((hA c w).trans (hof c _ h).symm)
    have hjoin := Pipeline.unscopedBufs_of_arrays (p := p) (pcfgs (F := F)) adm (Ix := Unit) (Name := ℕ) (U := UR sig nD τ) (Lvl := ℕ)
      kit.win kit.arr_whole c (pdats m) ((pdats m p c).share_full (hq c)) (fun b => Vi c b) (fun b => Vo c b) _ hF fun b hb => by
        by_cases h : b ∈ O
        · exact (hout c b h).trans (Pipeline.withArrays_of_ne _ c _ _ b fun w e => hb (Finset.mem_image.mpr ⟨w, Finset.mem_univ _, e⟩))
        · exact hof c b h
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin; rw [ho]
    icases HO with ⟨%W, -, HO⟩; iexists W; iexact HO

def reg0 : RegionSeg (pcfgs (F := F)) adm (pdats m) () defs₀ 𝒱₀ L lv 0 :=
  reg m launch0 (V3 m) (V4 m (outs m)) (body_obligation0 _) (fun _ _ => rfl) (fun _ _ => rfl) (fun _ _ => rfl) (fun _ _ => rfl) (fun _ _ => rfl) (by decide)
    (fun c => List.forall_mem_cons.mpr ⟨(Function.update_of_ne (StableHlo.devRef_ne_of_ne (by decide)) ..).trans (Function.update_self ..), List.forall_mem_singleton.mpr (Function.update_self ..)⟩)
    (V4_of m (outs m))
def reg1 : RegionSeg (pcfgs (F := F)) adm (pdats m) () defs₀ 𝒱₀ L lv 1 :=
  reg m launch1 (V5 m (outs m)) (V6 m (outs m)) (body_obligation1 _) (fun _ _ => rfl) (fun _ _ => rfl) (fun _ _ => rfl) (fun _ _ => rfl) (fun _ _ => rfl) (by decide)
    (fun c => List.forall_mem_singleton.mpr (Function.update_self ..)) (V6_of m (outs m))
def reg2 : RegionSeg (pcfgs (F := F)) adm (pdats m) () defs₀ 𝒱₀ L lv 2 :=
  reg m launch2 (V6 m (outs m)) (V7 m (outs m)) (body_obligation2 _) (fun _ _ => rfl) (fun _ _ => rfl) (fun _ _ => rfl) (fun _ _ => rfl) (fun _ _ => rfl) (by decide)
    (fun c => List.forall_mem_singleton.mpr (Function.update_self ..)) (V7_of m (outs m))
def reg3 : RegionSeg (pcfgs (F := F)) adm (pdats m) () defs₀ 𝒱₀ L lv 3 :=
  reg m launch3 (V7 m (outs m)) (V8 m (outs m)) (body_obligation3 _) (fun _ _ => rfl) (fun _ _ => rfl) (fun _ _ => rfl) (fun _ _ => rfl) (fun _ _ => rfl) (by decide)
    (fun c => List.forall_mem_singleton.mpr (Function.update_self ..)) (V8_of m (outs m))

end Cert.KernelIdeal.Hand

end
-- ==== Proof.KILaunch.lean ====
import proofs.«420008_j32530082300305_1_alg».proof.Proof.KISeg

noncomputable section

namespace Cert.KernelIdeal.Hand

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation RegionSeg)

variable {F : FTy → Type} [FloatOps F]

local notation "𝕄" => MT nD τ sig Unit (Elt F) ℕ (UR sig nD τ) ℕ

variable (m : (ℓ : Loc nD τ sig) → Buf (Elt F) ℓ) (ρ : Dev nD → PrngReg)

theorem hu₀ (u : UR sig nD τ) : (ownU u : sProp 𝕄) ⊢ |={Set.univ}=> iprop(BI.own (emb₁ u) ∗ bigSep Finset.univ fun _ : Dev nD => (BI.emp : sProp 𝕄)) := by
  rw [BI.bigSep_emp_const]; exact .trans (sep_emp_intro (P := BI.own (emb₁ u))) fupd_intro

theorem hE0 : iprop((bigSep Finset.univ fun c : Dev nD => iprop(unscopedSems0 c ∗ owes (c : Thread nD τ) ((0 : Dev nD → CellTallies nD τ sig Unit) c) ∅
      ∗ Pipeline.launchCred (0 : Dev nD → CellTallies nD τ sig Unit) c ∗ prngReg c (ρ c) ∗ (BI.emp : sProp 𝕄))) ∗ levAts L lv)
    ⊢ (|={Set.univ}=> bigSep Finset.univ (R (F := F)) : sProp 𝕄) := by
  refine .trans (.trans sep_elim_left (bigSep_mono fun c _ => ?_)) fupd_intro
  change (_ : sProp 𝕄) ⊢ _
  iintro ⟨-, HO, -, Hp, -⟩
  isplitl [Hp]; · iexists _; iexact Hp
  iexists ∅; iexact HO

theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)) :=
  Gen.frame_cond (m := m) (EP := emb₁) (ι := ()) (𝒱₀ := 𝒱₀) (L := L) (lv := lv) (hL := fun _ _ => rfl) (ρ := ρ) (outs := outs m)
    (pdats := pdats m) (O₀ := 0) (G := fun _ => (BI.emp : sProp 𝕄)) (hu₀ := hu₀ _)
    (E := fun _ => R) (hE0 := hE0 ρ) (hE4 := fun _ => sep_elim_right)
    (R0 := reg0 m) (hpre0 := fun _ => .rfl) (hpost0 := fun _ => .rfl)
    (R1 := reg1 m) (hpre1 := fun _ => .rfl) (hpost1 := fun _ => .rfl)
    (R2 := reg2 m) (hpre2 := fun _ => .rfl) (hpost2 := fun _ => .rfl)
    (R3 := reg3 m) (hpre3 := fun _ => .rfl) (hpost3 := fun _ => .rfl)

end Cert.KernelIdeal.Hand

end
-- ==== Proof.KIRunRes.lean ====
import proofs.«420008_j32530082300305_1_alg».proof.Proof.KILaunch
import proofs.«420008_j32530082300305_1_alg».proof.Proof.KIRunCond

noncomputable section

namespace Cert.KernelIdeal.Hand

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation RegionSeg)

variable {F : FTy → Type} [FloatOps F]

local notation "𝕄" => MT nD τ sig Unit (Elt F) ℕ (UR sig nD τ) ℕ

variable (m : (ℓ : Loc nD τ sig) → Buf (Elt F) ℓ) (ρ : Dev nD → PrngReg)

theorem run_main : θ_run defs (onTc (τ := τ) (main (F := F))) ⟨m, fun _ => 0, ρ⟩ (fun r => ∀ c : Dev nD,
      r.2.mem ((c.tc : Thread nD τ).loc main_v105) = V14 m (outs m) c main_v105
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)) :=
  Gen2.run_cond (m := m) (EP := emb₁) (ι := ()) (𝒱₀ := 𝒱₀) (L := L) (lv := lv) (hL := fun _ _ => rfl) (ρ := ρ) (outs := outs m)
    (pdats := pdats m) (O₀ := 0) (G := fun _ => (BI.emp : sProp 𝕄)) (hu₀ := hu₀ _)
    (E := fun _ => R) (hE0 := hE0 ρ) (hE4 := fun _ => sep_elim_right)
    (R0 := reg0 m) (hpre0 := fun _ => .rfl) (hpost0 := fun _ => .rfl)
    (R1 := reg1 m) (hpre1 := fun _ => .rfl) (hpost1 := fun _ => .rfl)
    (R2 := reg2 m) (hpre2 := fun _ => .rfl) (hpost2 := fun _ => .rfl)
    (R3 := reg3 m) (hpre3 := fun _ => .rfl) (hpost3 := fun _ => .rfl)

end Cert.KernelIdeal.Hand

end
-- ==== Proof.KIHost.lean ====
import proofs.«420008_j32530082300305_1_alg».proof.Proof.Gen.KernelIdeal.Regions
import Idealize.ShloMosaic.Lib.StableHlo.Run

set_option maxRecDepth 1380

noncomputable section

namespace Cert.KernelIdeal.Hand

open Idealize.ShloMosaic Idealize.ShloMosaic.TcCoe
open Idealize.ShloMosaic.StableHlo
open Cert.KernelIdeal Cert.KernelIdeal.Gen

variable {F : FTy → Type} [FloatOps F]

local notation "𝔹[" S ", " e "]" => BufTy.Contents (Elt F) (BufTy.mk S e)

def kRelu (a2 : 𝔹[S16x28, .f32]) : 𝔹[S16x28, .f32] :=
  maximumf a2 (broadcastInDim S16x28 ![] bcast_S_S16x28 (constant S_ .f32 0x00000000#32))

def kRow : 𝔹[S28, .i32] :=
  select (constantI S28 1 0#1)
    (addi (fun i => lit0 (S28.rowMajor i)) (broadcastInDim S28 ![] bcast_S_S28 (constantI S_ 32 8#32)))
    (fun i => lit0 (S28.rowMajor i))

def kCol : 𝔹[S28, .i32] :=
  select (constantI S28 1 0#1)
    (addi (fun i => lit1 (S28.rowMajor i)) (broadcastInDim S28 ![] bcast_S_S28 (constantI S_ 32 8#32)))
    (fun i => lit1 (S28.rowMajor i))

def kIdx : 𝔹[S28x2, .i32] :=
  concatenate S28x2 1 [⟨S28x1, broadcastInDim S28x1 ![0] bcast_S28_S28x1_0 (kRow (F := F))⟩,
    ⟨S28x1, broadcastInDim S28x1 ![0] bcast_S28_S28x1_0 (kCol (F := F))⟩] concatenates_S28x1_S28x1_S28x2_d1

def kUpper (a2 : 𝔹[S16x28, .f32]) : 𝔹[S16x8x8, .f32] :=
  Host.scatter scatter_S16x8x8_S28x2_S16x28_0_12_12_1 (fun _ b => b)
    (broadcastInDim S16x8x8 ![] bcast_S_S16x8x8 (constant S_ .f32 0x00000000#32)) (kIdx (F := F)) (kRelu a2)

def kA (a2 : 𝔹[S16x28, .f32]) : 𝔹[S16x8x8, .f32] :=
  addf (kUpper a2) (transpose S16x8x8 [0, 2, 1] (kUpper a2) transposes_S16x8x8_S16x8x8_0_2_1)

def kFcwT (a4 : 𝔹[S64x128, .f32]) : 𝔹[S128x64, .f32] :=
  transpose S128x64 [1, 0] a4 transposes_S64x128_S128x64_1_0

def kFcb (a5 : 𝔹[S64, .f32]) : 𝔹[S1x64, .f32] :=
  fun i => shapeCast S1x64 a5 shapeCasts_S64_S1x64 i

def kZmatT (z : 𝔹[S16x8x64, .f32]) : 𝔹[S64x128, .f32] :=
  transpose S64x128 [1, 0] (fun i => shapeCast S128x64 z shapeCasts_S16x8x64_S128x64 i) transposes_S128x64_S64x128_1_0

def kZnext (A : 𝔹[S16x8x8, .f32]) (z : 𝔹[S16x8x64, .f32]) : 𝔹[S16x8x64, .f32] :=
  Host.dotGeneral dot_S16x8x8_S16x8x64_S16x8x64_2_1_1_2_0_0 none A z

def kSrc (a14 : 𝔹[S1600000, .i32]) : 𝔹[S1600000x1, .i32] :=
  broadcastInDim S1600000x1 ![0] bcast_S1600000_S1600000x1_0
    (select (cmpi .slt a14 (broadcastInDim S1600000 ![] bcast_S_S1600000 (constantI S_ 32 0#32)))
      (addi a14 (broadcastInDim S1600000 ![] bcast_S_S1600000 (constantI S_ 32 100000#32))) a14)

def kMsg (a1 : 𝔹[S1600000, .f32]) (a14 : 𝔹[S1600000, .i32]) (x : 𝔹[S100000x64, .f32]) : 𝔹[S1600000x64, .f32] :=
  mulf (broadcastInDim S1600000x64 ![0, 1] bcast_S1600000x1_S1600000x64_0_1
      (broadcastInDim S1600000x1 ![0] bcast_S1600000_S1600000x1_0 a1))
    (Host.gather gather_S100000x64_S1600000x1_S1600000x64_1_0_n_n_0_1_164 x (kSrc a14))

def kSpmm (a1 : 𝔹[S1600000, .f32]) (a13 a14 : 𝔹[S1600000, .i32]) (x : 𝔹[S100000x64, .f32]) : 𝔹[S100000x64, .f32] :=
  Host.scatterAdd scatter_S100000x64_S1600000x1_S1600000x64_1_0_0_1
    (broadcastInDim S100000x64 ![] bcast_S_S100000x64 (constant S_ .f32 0x00000000#32))
    (broadcastInDim S1600000x1 ![0] bcast_S1600000_S1600000x1_0 a13)
    (kMsg a1 a14 x)

def kNorm (a12 : 𝔹[S100000, .i32]) : 𝔹[S512x1, .f32] :=
  broadcastInDim S512x1 ![0] bcast_S512_S512x1_0
    (maximumf
      (Host.scatterAdd scatter_S512_S100000x1_S100000_n_0_0_1
        (broadcastInDim S512 ![] bcast_S_S512 (constant S_ .f32 0x00000000#32))
        (broadcastInDim S100000x1 ![0] bcast_S100000_S100000x1_0 a12)
        (broadcastInDim S100000 ![] bcast_S_S100000 (constant S_ .f32 0x3F800000#32)))
      (broadcastInDim S512 ![] bcast_S_S512 (constant S_ .f32 0x3F800000#32)))

def kGi2 (a12 : 𝔹[S100000, .i32]) : 𝔹[S100000x1, .i32] :=
  fun i => shapeCast S100000x1 a12 shapeCasts_S100000_S100000x1 i

def kHead (P : 𝔹[S512x128, .f32]) (nrm : 𝔹[S512x1, .f32]) : 𝔹[S512x16, .f32] :=
  Host.divf
    (Host.reduceAdd (fun i => shapeCast S512x16x8 P shapeCasts_S512x128_S512x16x8 i : 𝔹[S512x16x8, .f32])
      (constant S_ .f32 0x00000000#32) reducesTo_S512x16x8_S512x16_d2 h_S_)
    (broadcastInDim S512x16 ![0, 1] bcast_S512x1_S512x16_0_1 nrm)

def kCat (h0 h1 h2 : 𝔹[S512x16, .f32]) : 𝔹[S512x48, .f32] :=
  concatenate S512x48 1 [⟨S512x16, h0⟩, ⟨S512x16, h1⟩, ⟨S512x16, h2⟩] concatenates_S512x16_S512x16_S512x16_S512x48_d1

def kMean (x : 𝔹[S512x48, .f32]) : 𝔹[S48, .f32] :=
  Host.divf (Host.reduceAdd x (constant S_ .f32 0x00000000#32) reducesTo_S512x48_S48_d0 h_S_)
    (broadcastInDim S48 ![] bcast_S_S48 (constant S_ .f32 0x44000000#32))

def kVar (x : 𝔹[S512x48, .f32]) : 𝔹[S48, .f32] :=
  let d : 𝔹[S512x48, .f32] := subf x (broadcastInDim S512x48 ![0, 1] bcast_S1x48_S512x48_0_1
    (Host.divf (broadcastInDim S1x48 ![1] bcast_S48_S1x48_1
        (Host.reduceAdd x (constant S_ .f32 0x00000000#32) reducesTo_S512x48_S48_d0 h_S_))
      (broadcastInDim S1x48 ![] bcast_S_S1x48 (constant S_ .f32 0x44000000#32))))
  let n : 𝔹[S_, .f32] := subf (constant S_ .f32 0x44000000#32) (sitofp .f32 (constantI S_ 32 0#32))
  select (broadcastInDim S48 ![] bcast_S_S48 (cmpf .ogt n (constant S_ .f32 0x00000000#32)))
    (Host.divf (Host.reduceAdd (mulf d d) (constant S_ .f32 0x00000000#32) reducesTo_S512x48_S48_d0 h_S_)
      (broadcastInDim S48 ![] bcast_S_S48 n))
    (broadcastInDim S48 ![] bcast_S_S48 (id (constant S_ .f32 0x7FC00000#32)))

def kBn (x : 𝔹[S512x48, .f32]) (a6 a7 : 𝔹[S48, .f32]) : 𝔹[S512x48, .f32] :=
  addf
    (Host.divf
      (mulf (broadcastInDim S512x48 ![0, 1] bcast_S1x48_S512x48_0_1 (broadcastInDim S1x48 ![1] bcast_S48_S1x48_1 a6))
        (subf x (broadcastInDim S512x48 ![0, 1] bcast_S1x48_S512x48_0_1 (broadcastInDim S1x48 ![1] bcast_S48_S1x48_1 (kMean x)))))
      (broadcastInDim S512x48 ![0, 1] bcast_S1x48_S512x48_0_1 (broadcastInDim S1x48 ![1] bcast_S48_S1x48_1
        (Host.sqrt (addf (kVar x) (broadcastInDim S48 ![] bcast_S_S48 (constant S_ .f32 0x3727C5AC#32)))))))
    (broadcastInDim S512x48 ![0, 1] bcast_S1x48_S512x48_0_1 (broadcastInDim S1x48 ![1] bcast_S48_S1x48_1 a7))

def kLin1 (y : 𝔹[S512x48, .f32]) (a8 : 𝔹[S128x48, .f32]) (a9 : 𝔹[S128, .f32]) : 𝔹[S512x128, .f32] :=
  addf
    (Host.dotGeneral dot_S512x48_S48x128_S512x128_1_0_0_1_n_n none y
      (transpose S48x128 [1, 0] a8 transposes_S128x48_S48x128_1_0))
    (broadcastInDim S512x128 ![0, 1] bcast_S1x128_S512x128_0_1 (broadcastInDim S1x128 ![1] bcast_S128_S1x128_1 a9))

def kRelu1 (x : 𝔹[S512x128, .f32]) : 𝔹[S512x128, .f32] :=
  maximumf x (broadcastInDim S512x128 ![] bcast_S_S512x128 (constant S_ .f32 0x00000000#32))

def kLin2 (y : 𝔹[S512x128, .f32]) (a10 : 𝔹[S10x128, .f32]) (a11 : 𝔹[S10, .f32]) : 𝔹[S512x10, .f32] :=
  addf
    (Host.dotGeneral dot_S512x128_S128x10_S512x10_1_0_0_1_n_n none y
      (transpose S128x10 [1, 0] a10 transposes_S10x128_S128x10_1_0))
    (broadcastInDim S512x10 ![0, 1] bcast_S1x10_S512x10_0_1 (broadcastInDim S1x10 ![1] bcast_S10_S1x10_1 a11))

def kLogSoftmax (x : 𝔹[S512x10, .f32]) : 𝔹[S512x10, .f32] :=
  let s : 𝔹[S512x10, .f32] := subf x (broadcastInDim S512x10 ![0, 1] bcast_S512x1_S512x10_0_1
    (broadcastInDim S512x1 ![0] bcast_S512_S512x1_0
      (maximumf (broadcastInDim S512 ![] bcast_S_S512 (constant S_ .f32 0xFF800000#32))
        (Host.reduce FloatOps.maximumf x (constant S_ .f32 0xFF800000#32) reducesTo_S512x10_S512_d1 h_S_))))
  subf s (broadcastInDim S512x10 ![0, 1] bcast_S512x1_S512x10_0_1
    (Host.log (broadcastInDim S512x1 ![0] bcast_S512_S512x1_0
      (Host.reduceAdd (Host.exp s) (constant S_ .f32 0x00000000#32) reducesTo_S512x10_S512_d1 h_S_))))

def kTail (h0 h1 h2 : 𝔹[S512x16, .f32]) (a6 a7 : 𝔹[S48, .f32]) (a8 : 𝔹[S128x48, .f32]) (a9 : 𝔹[S128, .f32])
    (a10 : 𝔹[S10x128, .f32]) (a11 : 𝔹[S10, .f32]) : 𝔹[S512x10, .f32] :=
  kLogSoftmax (kLin2 (kRelu1 (kLin1 (kBn (kCat h0 h1 h2) a6 a7) a8 a9)) a10 a11)

section Results
variable {Val : EltTy → Type}

theorem nary3_result {x a b y : Ref sig .tc}
    (f : ((k : Fin 3) → ((![x, a, b] : Fin 3 → Ref sig .tc) k).ty.Contents Val) → y.ty.Contents Val) (hxs hy)
    (V : Valuation τ sig Val) :
    (nary (τ := τ) ![x, a, b] y f hxs hy).result V (Proc.devRef .tc y)
      = f (Fin.cons (V (Proc.devRef .tc x)) (Fin.cons (V (Proc.devRef .tc a)) (Fin.cons (V (Proc.devRef .tc b)) (fun i => i.elim0)))) := by
  rw [nary_result]; congr 1; funext k; fin_cases k <;> rfl

end Results

local macro "host_results" : tactic =>
  `(tactic| (simp only [after_cons, after_nil]
             repeat (first
               | rw [nullary_result] | rw [unary_result] | rw [binary_result] | rw [ternary_result]
               | rw [reshape_result] | rw [nary3_result]
               | (rw [nullary_result_ne]; rotate_left; decide)
               | (rw [unary_result_ne]; rotate_left; decide)
               | (rw [binary_result_ne]; rotate_left; decide)
               | (rw [ternary_result_ne]; rotate_left; decide)
               | (rw [reshape_result_ne]; rotate_left; decide)
               | (rw [nary_result_ne]; rotate_left; decide))))

variable (m : (ℓ : Loc nD τ sig) → Buf (Elt F) ℓ) (outs : Outs (F := F)) (W : Valuation τ sig (Elt F))

local macro "carry" : tactic =>
  `(tactic| (repeat (first
      | (rw [V14_of]; rotate_left; decide) | (rw [V13_of]; rotate_left; decide) | (rw [V12_of]; rotate_left; decide)
      | (rw [V11_of]; rotate_left; decide) | (rw [V10_of]; rotate_left; decide) | (rw [V9_of]; rotate_left; decide)
      | (rw [V8_of]; rotate_left; decide) | (rw [V7_of]; rotate_left; decide) | (rw [V6_of]; rotate_left; decide)
      | (rw [V5_of]; rotate_left; decide) | (rw [V4_of]; rotate_left; decide) | (rw [V3_of]; rotate_left; decide)
      | (rw [V2_of]; rotate_left; decide) | (rw [V1_of]; rotate_left; decide))))

theorem ops0_c : StableHlo.after hostOps0 W (Proc.devRef .tc main_c) = (fun i => lit0 (S28.rowMajor i) : 𝔹[S28, .i32]) := by
  after_results <;> rfl
theorem ops0_c_0 : StableHlo.after hostOps0 W (Proc.devRef .tc main_c_0) = (constantI S28 1 0#1 : 𝔹[S28, .i1]) := by
  after_results <;> rfl
theorem ops0_c_1 : StableHlo.after hostOps0 W (Proc.devRef .tc main_c_1) = (fun i => lit1 (S28.rowMajor i) : 𝔹[S28, .i32]) := by
  after_results <;> rfl
theorem ops0_c_2 : StableHlo.after hostOps0 W (Proc.devRef .tc main_c_2) = (constantI S28 1 0#1 : 𝔹[S28, .i1]) := by
  after_results <;> rfl
theorem ops0_v0 : StableHlo.after hostOps0 W (Proc.devRef .tc main_v0)
    = (broadcastInDim S16x8x8 ![] bcast_S_S16x8x8 (constant S_ .f32 0x00000000#32) : 𝔹[S16x8x8, .f32]) := by
  after_results <;> rfl

theorem ops01_v1 : StableHlo.after hostOps0_1 W (Proc.devRef .tc main_v1) = kRelu (W (Proc.devRef .tc main_arg2)) := by
  after_results <;> rfl

set_option maxHeartbeats 4000000 in
theorem ops02_v13 (a2 : 𝔹[S16x28, .f32])
    (ec : W (Proc.devRef .tc main_c) = (fun i => lit0 (S28.rowMajor i) : 𝔹[S28, .i32]))
    (ec0 : W (Proc.devRef .tc main_c_0) = (constantI S28 1 0#1 : 𝔹[S28, .i1]))
    (ec1 : W (Proc.devRef .tc main_c_1) = (fun i => lit1 (S28.rowMajor i) : 𝔹[S28, .i32]))
    (ec2 : W (Proc.devRef .tc main_c_2) = (constantI S28 1 0#1 : 𝔹[S28, .i1]))
    (ev0 : W (Proc.devRef .tc main_v0) = (broadcastInDim S16x8x8 ![] bcast_S_S16x8x8 (constant S_ .f32 0x00000000#32) : 𝔹[S16x8x8, .f32]))
    (ev1 : W (Proc.devRef .tc main_v1) = kRelu a2) :
    StableHlo.after hostOps0_2 W (Proc.devRef .tc main_v13) = kA a2 := by
  after_results
  rw [ec, ec0, ec1, ec2, ev0, ev1]
  rfl

theorem ops02_v14 : StableHlo.after hostOps0_2 W (Proc.devRef .tc main_v14) = kFcwT (W (Proc.devRef .tc main_arg4)) := by
  after_results_simp <;> rfl
theorem ops02_v15 : StableHlo.after hostOps0_2 W (Proc.devRef .tc main_v15) = kFcb (W (Proc.devRef .tc main_arg5)) := by
  after_results_simp <;> rfl
theorem ops02_v17 : StableHlo.after hostOps0_2 W (Proc.devRef .tc main_v17) = kZmatT (W (Proc.devRef .tc main_arg3)) := by
  after_results_simp <;> rfl

theorem V3_main_arg0 (c : Dev nD) : V3 m c main_arg0 = m ((c : Thread nD τ).loc main_arg0) := by
  carry; try rfl

theorem V3_main_v13 (c : Dev nD) : V3 m c main_v13 = kA (m ((c : Thread nD τ).loc main_arg2)) := by
  refine ops02_v13 (V2 m c) _ ?_ ?_ ?_ ?_ ?_ ?_
  · exact (V2_of m c main_c (by decide)).trans (ops0_c _)
  · exact (V2_of m c main_c_0 (by decide)).trans (ops0_c_0 _)
  · exact (V2_of m c main_c_1 (by decide)).trans (ops0_c_1 _)
  · exact (V2_of m c main_c_2 (by decide)).trans (ops0_c_2 _)
  · exact (V2_of m c main_v0 (by decide)).trans (ops0_v0 _)
  · exact (ops01_v1 (V1 m c)).trans (congrArg kRelu (V1_of m c main_arg2 (by decide)))

theorem V3_main_v14 (c : Dev nD) : V3 m c main_v14 = kFcwT (m ((c : Thread nD τ).loc main_arg4)) :=
  (ops02_v14 (V2 m c)).trans (congrArg kFcwT (by carry; try rfl))
theorem V3_main_v15 (c : Dev nD) : V3 m c main_v15 = kFcb (m ((c : Thread nD τ).loc main_arg5)) :=
  (ops02_v15 (V2 m c)).trans (congrArg kFcb (by carry; try rfl))
theorem V3_main_v17 (c : Dev nD) : V3 m c main_v17 = kZmatT (m ((c : Thread nD τ).loc main_arg3)) :=
  (ops02_v17 (V2 m c)).trans (congrArg kZmatT (by carry; try rfl))

theorem ops1_v21 : StableHlo.after hostOps1 W (Proc.devRef .tc main_v21)
    = kZmatT (kZnext (W (Proc.devRef .tc main_v13)) (W (Proc.devRef .tc main_arg3))) := by
  after_results_simp <;> rfl
theorem ops1_v24 : StableHlo.after hostOps1 W (Proc.devRef .tc main_v24)
    = kZmatT (kZnext (W (Proc.devRef .tc main_v13)) (kZnext (W (Proc.devRef .tc main_v13)) (W (Proc.devRef .tc main_arg3)))) := by
  after_results_simp <;> rfl
theorem ops1_v37 : StableHlo.after hostOps1 W (Proc.devRef .tc main_v37)
    = kSpmm (W (Proc.devRef .tc main_arg1)) (W (Proc.devRef .tc main_arg13)) (W (Proc.devRef .tc main_arg14))
        (W (Proc.devRef .tc main_v18_0)) := by
  after_results_simp <;> rfl
theorem ops1_v50 : StableHlo.after hostOps1 W (Proc.devRef .tc main_v50)
    = kSpmm (W (Proc.devRef .tc main_arg1)) (W (Proc.devRef .tc main_arg13)) (W (Proc.devRef .tc main_arg14))
        (kSpmm (W (Proc.devRef .tc main_arg1)) (W (Proc.devRef .tc main_arg13)) (W (Proc.devRef .tc main_arg14))
          (W (Proc.devRef .tc main_v18_0))) := by
  after_results_simp <;> rfl
theorem ops1_v57 : StableHlo.after hostOps1 W (Proc.devRef .tc main_v57) = kNorm (W (Proc.devRef .tc main_arg12)) := by
  after_results_simp <;> rfl
theorem ops1_v58 : StableHlo.after hostOps1 W (Proc.devRef .tc main_v58) = kGi2 (W (Proc.devRef .tc main_arg12)) := by
  after_results_simp <;> rfl

theorem V4_main_v18_0 (c : Dev nD) : V4 m outs c main_v18_0 = outs 4 main_v18_0 c := by
  show Function.update (Function.update (V3 m c) (Proc.devRef .tc main_v18_0) _) (Proc.devRef .tc main_v18_1) _
    (Proc.devRef .tc main_v18_0) = _
  rw [Function.update_of_ne (StableHlo.devRef_ne_of_ne (by decide)), Function.update_self]
theorem V4_main_v18_1 (c : Dev nD) : V4 m outs c main_v18_1 = outs 4 main_v18_1 c := by
  show Function.update (Function.update (V3 m c) (Proc.devRef .tc main_v18_0) _) (Proc.devRef .tc main_v18_1) _
    (Proc.devRef .tc main_v18_1) = _
  rw [Function.update_self]

theorem V4_main_v13 (c : Dev nD) : V4 m outs c main_v13 = kA (m ((c : Thread nD τ).loc main_arg2)) :=
  (V4_of m outs c main_v13 (by decide)).trans (V3_main_v13 m c)

theorem V5_main_v18_0 (c : Dev nD) : V5 m outs c main_v18_0 = outs 4 main_v18_0 c :=
  (V5_of m outs c main_v18_0 (by decide)).trans (V4_main_v18_0 m outs c)
theorem V5_main_v18_1 (c : Dev nD) : V5 m outs c main_v18_1 = outs 4 main_v18_1 c :=
  (V5_of m outs c main_v18_1 (by decide)).trans (V4_main_v18_1 m outs c)
theorem V5_main_v17 (c : Dev nD) : V5 m outs c main_v17 = kZmatT (m ((c : Thread nD τ).loc main_arg3)) :=
  (V5_of m outs c main_v17 (by decide)).trans ((V4_of m outs c main_v17 (by decide)).trans (V3_main_v17 m c))
theorem V5_main_v21 (c : Dev nD) : V5 m outs c main_v21
    = kZmatT (kZnext (kA (m ((c : Thread nD τ).loc main_arg2))) (m ((c : Thread nD τ).loc main_arg3))) := by
  refine (ops1_v21 (V4 m outs c)).trans ?_
  rw [V4_main_v13]
  exact congrArg (fun z => kZmatT (kZnext _ z)) (by carry; try rfl)
theorem V5_main_v24 (c : Dev nD) : V5 m outs c main_v24
    = kZmatT (kZnext (kA (m ((c : Thread nD τ).loc main_arg2)))
        (kZnext (kA (m ((c : Thread nD τ).loc main_arg2))) (m ((c : Thread nD τ).loc main_arg3)))) := by
  refine (ops1_v24 (V4 m outs c)).trans ?_
  rw [V4_main_v13]
  exact congrArg (fun z => kZmatT (kZnext _ (kZnext _ z))) (by carry; try rfl)

theorem V4_main_arg1 (c : Dev nD) : V4 m outs c main_arg1 = m ((c : Thread nD τ).loc main_arg1) := by carry; try rfl
theorem V4_main_arg12 (c : Dev nD) : V4 m outs c main_arg12 = m ((c : Thread nD τ).loc main_arg12) := by carry; try rfl
theorem V4_main_arg13 (c : Dev nD) : V4 m outs c main_arg13 = m ((c : Thread nD τ).loc main_arg13) := by carry; try rfl
theorem V4_main_arg14 (c : Dev nD) : V4 m outs c main_arg14 = m ((c : Thread nD τ).loc main_arg14) := by carry; try rfl

theorem V5_main_v37 (c : Dev nD) : V5 m outs c main_v37
    = kSpmm (m ((c : Thread nD τ).loc main_arg1)) (m ((c : Thread nD τ).loc main_arg13)) (m ((c : Thread nD τ).loc main_arg14))
        (outs 4 main_v18_0 c) := by
  refine (ops1_v37 (V4 m outs c)).trans ?_
  rw [V4_main_arg1, V4_main_arg13, V4_main_arg14, V4_main_v18_0]
theorem V5_main_v50 (c : Dev nD) : V5 m outs c main_v50
    = kSpmm (m ((c : Thread nD τ).loc main_arg1)) (m ((c : Thread nD τ).loc main_arg13)) (m ((c : Thread nD τ).loc main_arg14))
        (kSpmm (m ((c : Thread nD τ).loc main_arg1)) (m ((c : Thread nD τ).loc main_arg13)) (m ((c : Thread nD τ).loc main_arg14))
          (outs 4 main_v18_0 c)) := by
  refine (ops1_v50 (V4 m outs c)).trans ?_
  rw [V4_main_arg1, V4_main_arg13, V4_main_arg14, V4_main_v18_0]
theorem V5_main_v57 (c : Dev nD) : V5 m outs c main_v57 = kNorm (m ((c : Thread nD τ).loc main_arg12)) :=
  (ops1_v57 (V4 m outs c)).trans (congrArg kNorm (V4_main_arg12 m outs c))
theorem V5_main_v58 (c : Dev nD) : V5 m outs c main_v58 = kGi2 (m ((c : Thread nD τ).loc main_arg12)) :=
  (ops1_v58 (V4 m outs c)).trans (congrArg kGi2 (V4_main_arg12 m outs c))

theorem V6_main_v18_1 (c : Dev nD) : V6 m outs c main_v18_1 = outs 4 main_v18_1 c :=
  (V6_of m outs c main_v18_1 (by decide)).trans (V5_main_v18_1 m outs c)
theorem V6_main_v21 (c : Dev nD) : V6 m outs c main_v21
    = kZmatT (kZnext (kA (m ((c : Thread nD τ).loc main_arg2))) (m ((c : Thread nD τ).loc main_arg3))) :=
  (V6_of m outs c main_v21 (by decide)).trans (V5_main_v21 m outs c)
theorem V6_main_v24 (c : Dev nD) : V6 m outs c main_v24
    = kZmatT (kZnext (kA (m ((c : Thread nD τ).loc main_arg2)))
        (kZnext (kA (m ((c : Thread nD τ).loc main_arg2))) (m ((c : Thread nD τ).loc main_arg3)))) :=
  (V6_of m outs c main_v24 (by decide)).trans (V5_main_v24 m outs c)
theorem V6_main_v37 (c : Dev nD) : V6 m outs c main_v37
    = kSpmm (m ((c : Thread nD τ).loc main_arg1)) (m ((c : Thread nD τ).loc main_arg13)) (m ((c : Thread nD τ).loc main_arg14))
        (outs 4 main_v18_0 c) :=
  (V6_of m outs c main_v37 (by decide)).trans (V5_main_v37 m outs c)
theorem V6_main_v50 (c : Dev nD) : V6 m outs c main_v50
    = kSpmm (m ((c : Thread nD τ).loc main_arg1)) (m ((c : Thread nD τ).loc main_arg13)) (m ((c : Thread nD τ).loc main_arg14))
        (kSpmm (m ((c : Thread nD τ).loc main_arg1)) (m ((c : Thread nD τ).loc main_arg13)) (m ((c : Thread nD τ).loc main_arg14))
          (outs 4 main_v18_0 c)) :=
  (V6_of m outs c main_v50 (by decide)).trans (V5_main_v50 m outs c)
theorem V6_main_v58 (c : Dev nD) : V6 m outs c main_v58 = kGi2 (m ((c : Thread nD τ).loc main_arg12)) :=
  (V6_of m outs c main_v58 (by decide)).trans (V5_main_v58 m outs c)

theorem V7_main_v18_1 (c : Dev nD) : V7 m outs c main_v18_1 = outs 4 main_v18_1 c :=
  (V7_of m outs c main_v18_1 (by decide)).trans (V6_main_v18_1 m outs c)
theorem V7_main_v24 (c : Dev nD) : V7 m outs c main_v24
    = kZmatT (kZnext (kA (m ((c : Thread nD τ).loc main_arg2)))
        (kZnext (kA (m ((c : Thread nD τ).loc main_arg2))) (m ((c : Thread nD τ).loc main_arg3)))) :=
  (V7_of m outs c main_v24 (by decide)).trans (V6_main_v24 m outs c)
theorem V7_main_v50 (c : Dev nD) : V7 m outs c main_v50
    = kSpmm (m ((c : Thread nD τ).loc main_arg1)) (m ((c : Thread nD τ).loc main_arg13)) (m ((c : Thread nD τ).loc main_arg14))
        (kSpmm (m ((c : Thread nD τ).loc main_arg1)) (m ((c : Thread nD τ).loc main_arg13)) (m ((c : Thread nD τ).loc main_arg14))
          (outs 4 main_v18_0 c)) :=
  (V7_of m outs c main_v50 (by decide)).trans (V6_main_v50 m outs c)
theorem V7_main_v58 (c : Dev nD) : V7 m outs c main_v58 = kGi2 (m ((c : Thread nD τ).loc main_arg12)) :=
  (V7_of m outs c main_v58 (by decide)).trans (V6_main_v58 m outs c)

set_option maxHeartbeats 4000000 in
theorem ops4_v74 : StableHlo.after hostOps4 W (Proc.devRef .tc main_v74)
    = kCat (kHead (W (Proc.devRef .tc main_v59)) (W (Proc.devRef .tc main_v57)))
        (kHead (W (Proc.devRef .tc main_v60)) (W (Proc.devRef .tc main_v57)))
        (kHead (W (Proc.devRef .tc main_v61)) (W (Proc.devRef .tc main_v57))) := by
  host_results
  rfl

set_option maxHeartbeats 4000000 in
theorem ops4_v77 : StableHlo.after hostOps4 W (Proc.devRef .tc main_v77)
    = kMean (kCat (kHead (W (Proc.devRef .tc main_v59)) (W (Proc.devRef .tc main_v57)))
        (kHead (W (Proc.devRef .tc main_v60)) (W (Proc.devRef .tc main_v57)))
        (kHead (W (Proc.devRef .tc main_v61)) (W (Proc.devRef .tc main_v57)))) := by
  host_results
  rfl

theorem ops4_c_19 : StableHlo.after hostOps4 W (Proc.devRef .tc main_c_19) = (constantI S_ 32 0#32 : 𝔹[S_, .i32]) := by
  after_results_simp <;> rfl

theorem ops41_v78 (x : 𝔹[S512x48, .f32]) (e74 : W (Proc.devRef .tc main_v74) = x)
    (e19 : W (Proc.devRef .tc main_c_19) = (constantI S_ 32 0#32 : 𝔹[S_, .i32])) :
    StableHlo.after hostOps4_1 W (Proc.devRef .tc main_v78) = kVar x := by
  subst e74
  after_results_simp <;> (try simp only [TRef.ofBuf, TRef.toBuf, cast_eq]) <;> (try rw [e19]) <;> rfl

theorem ops42_v98 (x : 𝔹[S512x48, .f32]) (e74 : W (Proc.devRef .tc main_v74) = x)
    (e77 : W (Proc.devRef .tc main_v77) = kMean x) (e78 : W (Proc.devRef .tc main_v78) = kVar x) :
    StableHlo.after hostOps4_2 W (Proc.devRef .tc main_v98)
      = kLin1 (kBn x (W (Proc.devRef .tc main_arg6)) (W (Proc.devRef .tc main_arg7)))
          (W (Proc.devRef .tc main_arg8)) (W (Proc.devRef .tc main_arg9)) := by
  subst e74
  after_results_simp <;> (try rw [e77, e78]) <;> rfl

theorem ops43_v99 : StableHlo.after hostOps4_3 W (Proc.devRef .tc main_v99) = kRelu1 (W (Proc.devRef .tc main_v98)) := by
  after_results_simp <;> (try simp only [TRef.ofBuf, TRef.toBuf, cast_eq]) <;> rfl

theorem ops44_v104 : StableHlo.after hostOps4_4 W (Proc.devRef .tc main_v104)
    = kLin2 (W (Proc.devRef .tc main_v99)) (W (Proc.devRef .tc main_arg10)) (W (Proc.devRef .tc main_arg11)) := by
  after_results_simp <;> rfl

theorem ops45_v105 : StableHlo.after hostOps4_5 W (Proc.devRef .tc main_v105) = kLogSoftmax (W (Proc.devRef .tc main_v104)) := by
  after_results_simp <;> (try simp only [TRef.ofBuf, TRef.toBuf, cast_eq]) <;> rfl

theorem V8_main_v59 (c : Dev nD) : V8 m outs c main_v59 = outs 6 main_v59 c := by
  rw [V8_of m outs c main_v59 (by decide), V7_of m outs c main_v59 (by decide)]
  exact Function.update_self ..
theorem V8_main_v60 (c : Dev nD) : V8 m outs c main_v60 = outs 7 main_v60 c := by
  rw [V8_of m outs c main_v60 (by decide)]
  exact Function.update_self ..
theorem V8_main_v61 (c : Dev nD) : V8 m outs c main_v61 = outs 8 main_v61 c :=
  Function.update_self ..
theorem V8_main_v57 (c : Dev nD) : V8 m outs c main_v57 = kNorm (m ((c : Thread nD τ).loc main_arg12)) := by
  rw [V8_of m outs c main_v57 (by decide), V7_of m outs c main_v57 (by decide), V6_of m outs c main_v57 (by decide)]
  exact V5_main_v57 m outs c

abbrev kCatOf (c : Dev nD) : 𝔹[S512x48, .f32] :=
  kCat (kHead (outs 6 main_v59 c) (kNorm (m ((c : Thread nD τ).loc main_arg12))))
    (kHead (outs 7 main_v60 c) (kNorm (m ((c : Thread nD τ).loc main_arg12))))
    (kHead (outs 8 main_v61 c) (kNorm (m ((c : Thread nD τ).loc main_arg12))))

theorem V9_main_v74 (c : Dev nD) : V9 m outs c main_v74 = kCatOf m outs c := by
  refine (ops4_v74 (V8 m outs c)).trans ?_
  rw [V8_main_v59, V8_main_v60, V8_main_v61, V8_main_v57]
theorem V9_main_v77 (c : Dev nD) : V9 m outs c main_v77 = kMean (kCatOf m outs c) := by
  refine (ops4_v77 (V8 m outs c)).trans ?_
  rw [V8_main_v59, V8_main_v60, V8_main_v61, V8_main_v57]
theorem V10_main_v78 (c : Dev nD) : V10 m outs c main_v78 = kVar (kCatOf m outs c) :=
  ops41_v78 (V9 m outs c) _ (V9_main_v74 m outs c) (ops4_c_19 _)
theorem V11_main_v98 (c : Dev nD) : V11 m outs c main_v98
    = kLin1 (kBn (kCatOf m outs c) (m ((c : Thread nD τ).loc main_arg6)) (m ((c : Thread nD τ).loc main_arg7)))
        (m ((c : Thread nD τ).loc main_arg8)) (m ((c : Thread nD τ).loc main_arg9)) := by
  have e6 : V10 m outs c main_arg6 = m ((c : Thread nD τ).loc main_arg6) := by carry; try rfl
  have e7 : V10 m outs c main_arg7 = m ((c : Thread nD τ).loc main_arg7) := by carry; try rfl
  have e8 : V10 m outs c main_arg8 = m ((c : Thread nD τ).loc main_arg8) := by carry; try rfl
  have e9 : V10 m outs c main_arg9 = m ((c : Thread nD τ).loc main_arg9) := by carry; try rfl
  refine (ops42_v98 (V10 m outs c) (kCatOf m outs c) ?_ ?_ (V10_main_v78 m outs c)).trans ?_
  · exact (V10_of m outs c main_v74 (by decide)).trans (V9_main_v74 m outs c)
  · exact (V10_of m outs c main_v77 (by decide)).trans (V9_main_v77 m outs c)
  · rw [e6, e7, e8, e9]

theorem V14_main_v105 (c : Dev nD) : V14 m outs c main_v105
    = kTail (kHead (outs 6 main_v59 c) (kNorm (m ((c : Thread nD τ).loc main_arg12))))
        (kHead (outs 7 main_v60 c) (kNorm (m ((c : Thread nD τ).loc main_arg12))))
        (kHead (outs 8 main_v61 c) (kNorm (m ((c : Thread nD τ).loc main_arg12))))
        (m ((c : Thread nD τ).loc main_arg6)) (m ((c : Thread nD τ).loc main_arg7))
        (m ((c : Thread nD τ).loc main_arg8)) (m ((c : Thread nD τ).loc main_arg9))
        (m ((c : Thread nD τ).loc main_arg10)) (m ((c : Thread nD τ).loc main_arg11)) := by
  have e10 : V12 m outs c main_arg10 = m ((c : Thread nD τ).loc main_arg10) := by carry; try rfl
  have e11 : V12 m outs c main_arg11 = m ((c : Thread nD τ).loc main_arg11) := by carry; try rfl
  have e99 : V12 m outs c main_v99 = kRelu1 (V11 m outs c main_v98) := ops43_v99 (V11 m outs c)
  have e104 : V13 m outs c main_v104 = kLin2 (V12 m outs c main_v99) (V12 m outs c main_arg10) (V12 m outs c main_arg11) :=
    ops44_v104 (V12 m outs c)
  refine (ops45_v105 (V13 m outs c)).trans ?_
  rw [e104, e99, e10, e11, V11_main_v98]
  rfl

end Cert.KernelIdeal.Hand

end
-- ==== Proof.KIVal0.lean ====
import proofs.«420008_j32530082300305_1_alg».proof.Proof.KIReg0
import proofs.«420008_j32530082300305_1_alg».proof.Proof.KIStep
import Idealize.ShloMosaic.Lib.ValueLayout
import Idealize.ShloMosaic.Lib.StackMember
import Idealize.ShloMosaic.Lib.KernelVsHost

noncomputable section

namespace Cert.KernelIdeal.Hand

open Idealize.ShloMosaic Idealize.ShloMosaic.ValueIdx Idealize.ShloMosaic.TcCoe
open Cert.KernelIdeal Cert.KernelIdeal.Gen
open Idealize.SL.Sem
open scoped BigOperators

-- A dot record with the fields of the plain product is the plain product, which the library reads at an index.
theorem matmul_plain_apply {M K N : ℕ} {φ₁ φ₂ : FTy} (D : DotDims ⟨2, ![M, K]⟩ ⟨2, ![K, N]⟩ ⟨2, ![M, N]⟩)
    (hD : D = DotDims.plain M K N) (A : FVec Ideal ⟨2, ![M, K]⟩ φ₁) (B : FVec Ideal ⟨2, ![K, N]⟩ φ₂) (a : Fin M) (b : Fin N) :
    matmul D none A B (constant ⟨2, ![M, N]⟩ .f32 0x00000000#32) (ix2 a b) = ∑ c : Fin K, A (ix2 a c) * B (ix2 c b) := by
  subst hD
  rw [matmul_zero_eq_dotGeneral]
  exact StackMember.dotGeneral_plain_apply none A B a b

theorem k0_pay1_apply (x0 : Vec Ideal S2000x128 .f32) (w : Vec Ideal S128x64 .f32) (b : Vec Ideal S1x64 .f32)
    (r : Fin 2000) (h : Fin 64) :
    k0_pay1 x0 w b (ix2 r h) = Ideal.logistic ((∑ k : Fin 128, x0 (ix2 r k) * w (ix2 k h)) + b (ix2 0 h)) := by
  unfold k0_pay1
  show Ideal.logistic (_ + _) = _
  rw [matmul_plain_apply dot_S2000x128_S128x64_S2000x64_1_0_0_1_n_n rfl, shapeCast_self, shapeCast_self, broadcastTo_1b_ab_apply]
  rfl

theorem k0_pay2_apply (x0 : Vec Ideal S2000x128 .f32) (w : Vec Ideal S128x64 .f32) (b : Vec Ideal S1x64 .f32)
    (zT : Vec Ideal S64x128 .f32) (r : Fin 2000) (j : Fin 128) :
    k0_pay2 x0 w b zT (ix2 r j) = ∑ h : Fin 64, k0_pay1 x0 w b (ix2 r h) * zT (ix2 h j) := by
  unfold k0_pay2
  show matmul _ none _ _ _ (ix2 r j) = _
  rw [matmul_plain_apply dot_S2000x64_S64x128_S2000x128_1_0_0_1_n_n rfl, shapeCast_self]
  rfl

def X0 (a0 : Vec Ideal S100000x128 .f32) (w : Vec Ideal S128x64 .f32) (b : Vec Ideal S1x64 .f32) : Vec Ideal S100000x64 .f32 :=
  fun i => Ideal.logistic ((∑ k : Fin 128, a0 (ix2 (i 0 : Fin 100000) k) * w (ix2 k (i 1 : Fin 64))) + b (ix2 (0 : Fin 1) (i 1 : Fin 64)))

def ZX0 (x : Vec Ideal S100000x64 .f32) (zT : Vec Ideal S64x128 .f32) : Vec Ideal S100000x128 .f32 :=
  fun i => ∑ h : Fin 64, x (ix2 (i 0 : Fin 100000) h) * zT (ix2 h (i 1 : Fin 128))

theorem X0_apply (a0 : Vec Ideal S100000x128 .f32) (w : Vec Ideal S128x64 .f32) (b : Vec Ideal S1x64 .f32) (r : Fin 100000) (h : Fin 64) :
    X0 a0 w b (ix2 r h) = Ideal.logistic ((∑ k : Fin 128, a0 (ix2 r k) * w (ix2 k h)) + b (ix2 (0 : Fin 1) h)) := rfl

theorem ZX0_apply (x : Vec Ideal S100000x64 .f32) (zT : Vec Ideal S64x128 .f32) (r : Fin 100000) (j : Fin 128) :
    ZX0 x zT (ix2 r j) = ∑ h : Fin 64, x (ix2 r h) * zT (ix2 h j) := rfl

-- Row r of row block t.
def row (t : Fin 50) (r : Fin 2000) : Fin 100000 := ⟨2000 * t.val + r.val, by omega⟩

-- Every row is a row of some row block.
theorem rows_cover {C : ℕ} (i : (⟨2, ![100000, C]⟩ : Shape).Idx) : ∃ (t : Fin 50) (r : Fin 2000), ix2 (row t r) (i 1) = i := by
  have : (i 0).val < 100000 := (i 0).isLt
  exact ⟨⟨(i 0).val / 2000, by omega⟩, ⟨(i 0).val % 2000, by omega⟩,
    Shape.idx_ext₂ (by show 2000 * ((i 0).val / 2000) + (i 0).val % 2000 = (i 0).val; omega) rfl⟩

theorem idx0 : ∀ t : Fin grid0.N,
    win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = t.val ∧ win0_4.index t (1 : Fin 2) = 0
    ∧ win0_5.index t (0 : Fin 2) = t.val ∧ win0_5.index t (1 : Fin 2) = 0 := by decide +kernel

-- Where a window's block at point t sits in its array: a row block, or the whole array.
theorem emb_rows64 (t : Fin 50) (r : Fin 2000) (h : Fin 64) : (win0_4.rect t).emb (ix2 r h) = ix2 (row t r) h :=
  Shape.idx_ext₂ (by have := idx0 t; show win0_4.index t (0 : Fin 2) * 2000 + 1 * r.val = 2000 * t.val + r.val; omega)
    (by have := idx0 t; show win0_4.index t (1 : Fin 2) * 64 + 1 * h.val = h.val; omega)
theorem emb_rows128 (t : Fin 50) (r : Fin 2000) (j : Fin 128) : (win0_5.rect t).emb (ix2 r j) = ix2 (row t r) j :=
  Shape.idx_ext₂ (by have := idx0 t; show win0_5.index t (0 : Fin 2) * 2000 + 1 * r.val = 2000 * t.val + r.val; omega)
    (by have := idx0 t; show win0_5.index t (1 : Fin 2) * 128 + 1 * j.val = j.val; omega)
theorem emb_w (t : Fin 50) (y : S128x64.Idx) : (win0_1.rect t).emb y = y :=
  Shape.idx_ext₂ (win0_1.rect_emb_val_of_index_zero t 0 (idx0 t).1 y) (win0_1.rect_emb_val_of_index_zero t 1 (idx0 t).2.1 y)
theorem emb_b (t : Fin 50) (y : S1x64.Idx) : (win0_2.rect t).emb y = y :=
  Shape.idx_ext₂ (win0_2.rect_emb_val_of_index_zero t 0 (idx0 t).2.2.1 y) (win0_2.rect_emb_val_of_index_zero t 1 (idx0 t).2.2.2.1 y)
theorem emb_z (t : Fin 50) (y : S64x128.Idx) : (win0_3.rect t).emb y = y :=
  Shape.idx_ext₂ (win0_3.rect_emb_val_of_index_zero t 0 (idx0 t).2.2.2.2.1 y) (win0_3.rect_emb_val_of_index_zero t 1 (idx0 t).2.2.2.2.2.1 y)

variable (V : (c : Dev nD) → (b : Ref sig .tc) → Buf (Elt Ideal) ((c : Thread nD τ).loc b))

theorem pay1_blk (c : Dev nD) (t : Fin cfg0.N) (p : Fin 2000) (q : Fin 64) :
    k0_pay1 (iblk0 V c 0 t) (iblk0 V c 1 t) (iblk0 V c 2 t) (ix2 p q)
      = X0 (V c main_arg0) (V c main_v14) (V c main_v15) (ix2 (row t p) q) := by
  rw [k0_pay1_apply, X0_apply]
  exact congrArg Ideal.logistic (congr (congrArg _ (Finset.sum_congr rfl fun k _ =>
    congr (congrArg _ (congrArg (V c main_arg0) (emb_rows128 t p k))) (congrArg (V c main_v14) (emb_w t _))))
    (congrArg (V c main_v15) (emb_b t _)))

theorem pay2_blk (c : Dev nD) (t : Fin cfg0.N) (p : Fin 2000) (q : Fin 128) :
    k0_pay2 (iblk0 V c 0 t) (iblk0 V c 1 t) (iblk0 V c 2 t) (iblk0 V c 3 t) (ix2 p q)
      = ZX0 (X0 (V c main_arg0) (V c main_v14) (V c main_v15)) (V c main_v17) (ix2 (row t p) q) := by
  rw [k0_pay2_apply, ZX0_apply]
  exact Finset.sum_congr rfl fun h _ => congr (congrArg _ (pay1_blk V c t p h)) (congrArg (V c main_v17) (emb_z t _))

theorem flushed0_4 (c : Dev nD) (t : Fin cfg0.N) :
    (dat0 V c).flushed 4 t = ((cfg0.win 4).blk t).view.read (Elt Ideal) (X0 (V c main_arg0) (V c main_v14) (V c main_v15)) := by
  show (cfg0.win 4).cut (grid0.coords t) ((dat0 V c).after 4 t) = _
  rw [after0_4]
  unfold out0_4
  rw [View.canon_unit_zero zeros2]
  simp only [View.ld_unit_zero (S := S2000x128) zeros2, View.ld_unit_zero (S := S128x64) zeros2, View.ld_unit_zero (S := S1x64) zeros2]
  funext y
  obtain ⟨p, q, rfl⟩ : ∃ (p : Fin 2000) (q : Fin 64), y = ix2 p q := ⟨y 0, y 1, eq_ix2 y⟩
  exact (pay1_blk V c t p q).trans (congrArg _ (emb_rows64 t p q)).symm

theorem flushed0_5 (c : Dev nD) (t : Fin cfg0.N) :
    (dat0 V c).flushed 5 t = ((cfg0.win 5).blk t).view.read (Elt Ideal)
      (ZX0 (X0 (V c main_arg0) (V c main_v14) (V c main_v15)) (V c main_v17)) := by
  show (cfg0.win 5).cut (grid0.coords t) ((dat0 V c).after 5 t) = _
  rw [after0_5]
  unfold out0_5
  rw [View.canon_unit_zero zeros2]
  simp only [View.ld_unit_zero (S := S2000x128) zeros2, View.ld_unit_zero (S := S128x64) zeros2,
    View.ld_unit_zero (S := S1x64) zeros2, View.ld_unit_zero (S := S64x128) zeros2]
  funext y
  obtain ⟨p, q, rfl⟩ : ∃ (p : Fin 2000) (q : Fin 128), y = ix2 p q := ⟨y 0, y 1, eq_ix2 y⟩
  exact (pay2_blk V c t p q).trans (congrArg _ (emb_rows128 t p q)).symm

theorem arr0_4 (c : Dev nD) :
    (dat0 V c).arrAt 4 cfg0.N = X0 (V c main_arg0) (V c main_v14) (V c main_v15) :=
  (dat0 V c).arrAt_eq_of_cover 4 _ (fun t _ => flushed0_4 V c t) fun i => by
    obtain ⟨t, r, e⟩ := rows_cover i
    exact ⟨t, flush0_4 t, (congrArg (· ∈ _) ((emb_rows64 t r (i 1)).trans e)).mp (View.emb_mem_set _ _)⟩

theorem arr0_5 (c : Dev nD) :
    (dat0 V c).arrAt 5 cfg0.N = ZX0 (X0 (V c main_arg0) (V c main_v14) (V c main_v15)) (V c main_v17) :=
  (dat0 V c).arrAt_eq_of_cover 5 _ (fun t _ => flushed0_5 V c t) fun i => by
    obtain ⟨t, r, e⟩ := rows_cover i
    exact ⟨t, flush0_5 t, (congrArg (· ∈ _) ((emb_rows128 t r (i 1)).trans e)).mp (View.emb_mem_set _ _)⟩

end Cert.KernelIdeal.Hand
end
-- ==== Proof.LibSegSum.lean ====
import Idealize.ShloMosaic.PureOps.Ideal
import Idealize.ShloMosaic.Lib.ValueIdx
import Mathlib.Algebra.BigOperators.Group.Finset.Basic
import Mathlib.Data.EReal.Basic

noncomputable section

open scoped BigOperators

namespace Cert.Hand.SegSum

open Idealize.ShloMosaic Idealize.ShloMosaic.ValueIdx

theorem resultIdx?_eq_some_iff {s si u : Shape} (d : ScatterDims s si u) {w : Nat} (j : u.Idx) (idx : IVec si w)
    (i : s.Idx) :
    d.resultIdx? j idx = some i ↔ ∀ a, d.start j idx a + (d.window j a : ℤ) = ((i a).val : ℤ) := by
  unfold ScatterDims.resultIdx?
  split
  · rename_i h
    constructor
    · intro he a
      have he' := Option.some.inj he
      have := congrArg (fun f => ((f a).val : ℤ)) he'
      simp only at this
      rw [← this]
      have := (h a).1
      omega
    · intro he
      congr 1
      funext a
      refine Fin.ext ?_
      have := he a
      simp only
      omega
  · rename_i h
    constructor
    · intro he; exact absurd he (by simp)
    · intro he
      exfalso
      apply h
      intro a
      have := he a
      have := (i a).isLt
      omega

abbrev S3 : Shape := ⟨3, ![512, 16, 8]⟩

abbrev SI : Shape := ⟨2, ![100000, 1]⟩

abbrev U3 : Shape := ⟨3, ![100000, 16, 8]⟩

abbrev rowDims3 (wf : ScatterDims.WF S3 SI U3 [1, 2] [0] [0] 1) : ScatterDims S3 SI U3 where
  updateWindowDims := [1, 2]
  insertedWindowDims := [0]
  scatterDimsToOperandDims := [0]
  indexVectorDim := 1
  wf := wf

theorem rowDims3_start0 (wf) (j : U3.Idx) (idx : IVec SI 32) :
    (rowDims3 wf).start j idx 0 = (idx (ix2 (j 0) 0)).toInt := by
  unfold ScatterDims.start
  rw [dif_pos (show (0 : Fin 3) ∈ (rowDims3 wf).scatterDimsToOperandDims from List.mem_singleton.mpr rfl)]
  have hsi : (rowDims3 wf).siIdx j ⟨List.idxOf (0 : Fin 3) (rowDims3 wf).scatterDimsToOperandDims,
      List.idxOf_lt_length_iff.2 (List.mem_singleton.mpr rfl)⟩ = ix2 (j 0) 0 := by
    funext b; refine Fin.ext ?_
    match b with
    | ⟨0, _⟩ => rfl
    | ⟨1, _⟩ => rfl
  rw [hsi]
  rfl

theorem rowDims3_start1 (wf) (j : U3.Idx) (idx : IVec SI 32) :
    (rowDims3 wf).start j idx 1 = 0 := by
  unfold ScatterDims.start
  rw [dif_neg (show ¬ (1 : Fin 3) ∈ ([0] : List (Fin 3)) by decide)]

theorem rowDims3_start2 (wf) (j : U3.Idx) (idx : IVec SI 32) :
    (rowDims3 wf).start j idx 2 = 0 := by
  unfold ScatterDims.start
  rw [dif_neg (show ¬ (2 : Fin 3) ∈ ([0] : List (Fin 3)) by decide)]

theorem rowDims3_window0 (wf) (j : U3.Idx) : (rowDims3 wf).window j 0 = 0 := by
  unfold ScatterDims.window
  rw [dif_neg (show ¬ (0 : Fin 3) ∈ S3.kept [0] by decide)]

theorem rowDims3_window1 (wf) (j : U3.Idx) : (rowDims3 wf).window j 1 = (j 1).val := by
  unfold ScatterDims.window
  rw [dif_pos (show (1 : Fin 3) ∈ S3.kept [0] by decide)]
  rfl

theorem rowDims3_window2 (wf) (j : U3.Idx) : (rowDims3 wf).window j 2 = (j 2).val := by
  unfold ScatterDims.window
  rw [dif_pos (show (2 : Fin 3) ∈ S3.kept [0] by decide)]
  rfl

theorem rowDims3_lands_iff (wf) (j : U3.Idx) (idx : IVec SI 32) (G : Fin 512) (g : Fin 16) (k : Fin 8) :
    (rowDims3 wf).resultIdx? j idx = some (ix3 G g k) ↔
      (idx (ix2 (j 0) 0)).toInt = (G.val : ℤ) ∧ j 1 = g ∧ j 2 = k := by
  rw [resultIdx?_eq_some_iff]
  constructor
  · intro h
    have h0 := h 0
    have h1 := h 1
    have h2 := h 2
    rw [rowDims3_start0, rowDims3_window0] at h0
    rw [rowDims3_start1, rowDims3_window1] at h1
    rw [rowDims3_start2, rowDims3_window2] at h2
    refine ⟨?_, Fin.ext ?_, Fin.ext ?_⟩
    · simpa using h0
    · have : ((j 1).val : ℤ) = ((g.val : ℕ) : ℤ) := by simpa using h1
      exact_mod_cast this
    · have : ((j 2).val : ℤ) = ((k.val : ℕ) : ℤ) := by simpa using h2
      exact_mod_cast this
  · rintro ⟨h0, h1, h2⟩ a
    match a with
    | ⟨0, _⟩ =>
      show (rowDims3 wf).start j idx 0 + ((rowDims3 wf).window j 0 : ℤ) = _
      rw [rowDims3_start0, rowDims3_window0, h0]; simp
    | ⟨1, _⟩ =>
      show (rowDims3 wf).start j idx 1 + ((rowDims3 wf).window j 1 : ℤ) = _
      rw [rowDims3_start1, rowDims3_window1, h1]; simp
    | ⟨2, _⟩ =>
      show (rowDims3 wf).start j idx 2 + ((rowDims3 wf).window j 2 : ℤ) = _
      rw [rowDims3_start2, rowDims3_window2, h2]; simp

theorem hostScatterAdd_rows3 (wf) (x : S3.Idx → EReal) (idx : IVec SI 32) (upd : U3.Idx → EReal)
    (G : Fin 512) (g : Fin 16) (k : Fin 8) :
    Ideal.hostScatterAdd (rowDims3 wf) x idx upd (ix3 G g k) =
      x (ix3 G g k) + ∑ n : Fin 100000, if (idx (ix2 n 0)).toInt = (G.val : ℤ) then upd (ix3 n g k) else 0 := by
  unfold Ideal.hostScatterAdd
  refine congrArg (fun z => x (ix3 G g k) + z) ?_
  rw [← Finset.sum_filter]
  refine Finset.sum_nbij' (fun j : U3.Idx => (j 0 : Fin 100000)) (fun n => ix3 n g k) ?_ ?_ ?_ ?_ ?_
  · intro j hj
    have hj' := (Finset.mem_filter.1 hj).2
    exact Finset.mem_filter.2 ⟨Finset.mem_univ _, ((rowDims3_lands_iff wf j idx G g k).1 hj').1⟩
  · intro n hn
    have hn' := (Finset.mem_filter.1 hn).2
    exact Finset.mem_filter.2 ⟨Finset.mem_univ _, (rowDims3_lands_iff wf _ idx G g k).2 ⟨hn', rfl, rfl⟩⟩
  · intro j hj
    have hj' := (Finset.mem_filter.1 hj).2
    obtain ⟨_, h1, h2⟩ := (rowDims3_lands_iff wf j idx G g k).1 hj'
    rw [← h1, ← h2]
    exact (eq_ix3 j).symm
  · intro n _
    rfl
  · intro j hj
    have hj' := (Finset.mem_filter.1 hj).2
    obtain ⟨_, h1, h2⟩ := (rowDims3_lands_iff wf j idx G g k).1 hj'
    rw [← h1, ← h2]
    exact congrArg upd (eq_ix3 j)

theorem hostScatterAdd_rows3_of (d : ScatterDims S3 SI U3) (h1 : d.updateWindowDims = [1, 2])
    (h2 : d.insertedWindowDims = [0]) (h3 : d.scatterDimsToOperandDims = [0]) (h4 : d.indexVectorDim = 1)
    (x : S3.Idx → EReal) (idx : IVec SI 32) (upd : U3.Idx → EReal) (G : Fin 512) (g : Fin 16) (k : Fin 8) :
    Ideal.hostScatterAdd d x idx upd (ix3 G g k) =
      x (ix3 G g k) + ∑ n : Fin 100000, if (idx (ix2 n 0)).toInt = (G.val : ℤ) then upd (ix3 n g k) else 0 := by
  obtain ⟨uw, iw, sd, iv, wf⟩ := d
  simp only at h1 h2 h3 h4
  subst h1 h2 h3 h4
  exact hostScatterAdd_rows3 wf x idx upd G g k

def blockEquiv : Fin 50 × Fin 2000 ≃ Fin 100000 where
  toFun p := ⟨2000 * p.1.val + p.2.val, by have := p.1.isLt; have := p.2.isLt; omega⟩
  invFun n := (⟨n.val / 2000, by have := n.isLt; omega⟩, ⟨n.val % 2000, by omega⟩)
  left_inv p := by
    have h1 := p.1.isLt; have h2 := p.2.isLt
    refine Prod.ext (Fin.ext ?_) (Fin.ext ?_)
    · show (2000 * p.1.val + p.2.val) / 2000 = p.1.val
      omega
    · show (2000 * p.1.val + p.2.val) % 2000 = p.2.val
      omega
  right_inv n := by
    refine Fin.ext ?_
    show 2000 * (n.val / 2000) + n.val % 2000 = n.val
    omega

theorem sum_blocks {M : Type*} [AddCommMonoid M] (f : Fin 100000 → M) :
    ∑ n, f n = ∑ t : Fin 50, ∑ r : Fin 2000,
      f ⟨2000 * t.val + r.val, by have := t.isLt; have := r.isLt; omega⟩ := by
  rw [← Equiv.sum_comp blockEquiv f, Fintype.sum_prod_type]
  rfl

theorem pool_blocks (gi : Fin 100000 → BitVec 32) (v : Fin 100000 → EReal) (G : Fin 512) :
    ∑ t : Fin 50, ∑ r : Fin 2000,
      (if (gi ⟨2000 * t.val + r.val, by have := t.isLt; have := r.isLt; omega⟩).toInt = (G.val : ℤ)
        then (1 : EReal) else 0) * v ⟨2000 * t.val + r.val, by have := t.isLt; have := r.isLt; omega⟩ =
    ∑ n : Fin 100000, if (gi n).toInt = (G.val : ℤ) then v n else 0 := by
  rw [sum_blocks (fun n => if (gi n).toInt = (G.val : ℤ) then v n else 0)]
  refine Finset.sum_congr rfl fun t _ => Finset.sum_congr rfl fun r _ => ?_
  rw [ite_mul, one_mul, zero_mul]

theorem word_eq_iff_toInt (w : BitVec 32) (G : Fin 512) :
    w = BitVec.ofNat 32 G.val ↔ w.toInt = (G.val : ℤ) := by
  have hG := G.isLt
  have hw := w.isLt
  rw [BitVec.toInt_eq_toNat_cond]
  constructor
  · rintro rfl
    rw [BitVec.toNat_ofNat, Nat.mod_eq_of_lt (by omega)]
    rw [if_pos (by omega)]
  · intro h
    apply BitVec.eq_of_toNat_eq
    rw [BitVec.toNat_ofNat, Nat.mod_eq_of_lt (by omega)]
    split at h <;> omega

end Cert.Hand.SegSum
-- ==== Proof.KIVal1.lean ====
import proofs.«420008_j32530082300305_1_alg».proof.Proof.KIVal0
import proofs.«420008_j32530082300305_1_alg».proof.Proof.KIReg1
import proofs.«420008_j32530082300305_1_alg».proof.Proof.KIReg2
import proofs.«420008_j32530082300305_1_alg».proof.Proof.KIReg3
import proofs.«420008_j32530082300305_1_alg».proof.Proof.LibSegSum

noncomputable section

namespace Cert.KernelIdeal.Hand

open Cert.KernelIdeal Cert.KernelIdeal.Gen
open Idealize.ShloMosaic Idealize.ShloMosaic.TcCoe Idealize.ShloMosaic.ValueIdx
open Idealize.SL.Sem
open scoped BigOperators

-- The pooling product contracts the row axis of both operands.
theorem pool_apply (lhs : FVec Ideal S2000x512 .bf16) (rhs : FVec Ideal S2000x128 .bf16) (G : Fin 512) (j : Fin 128) :
    matmul dot_S2000x512_S2000x128_S512x128_0_0_1_1_n_n none lhs rhs (constant S512x128 .f32 0x00000000#32) (ix2 G j)
      = ∑ r : Fin 2000, lhs (ix2 r G) * rhs (ix2 r j) := by
  simp only [matmul]
  rw [Ideal.matmul_constant_zero_apply,
    ← Equiv.sum_comp (contrEquiv1 dot_S2000x512_S2000x128_S512x128_0_0_1_1_n_n 2000 rfl rfl).symm]
  refine Finset.sum_congr rfl fun r _ => ?_
  have c := contrEquiv1_symm_val dot_S2000x512_S2000x128_S512x128_0_0_1_1_n_n 2000 rfl rfl r
  congr 2 <;> refine Shape.idx_ext₂ ?_ ?_
  · exact (DotDims.lhsIdx_val_of_single _ rfl _ _).trans c
  · simp [DotDims.lhsIdx, dot_S2000x512_S2000x128_S512x128_0_0_1_1_n_n]; rfl
  · exact (DotDims.rhsIdx_val_of_single _ rfl _ _).trans c
  · simp [DotDims.rhsIdx, dot_S2000x512_S2000x128_S512x128_0_0_1_1_n_n]; rfl

theorem onehot_apply (g : Vec Ideal S2000x1 .i32) (r : Fin 2000) (G : Fin 512) :
    (sitofp .f32 (extui 32 (cmpi .eq (broadcastTo S2000x512 (shapeCast S2000x1 g shapeCasts_S2000x1_S2000x1) broadcasts_S2000x1_S2000x512)
        (iota .tc S2000x512 32 [1] iota_S2000x512_d1_w32)) natLt_1_32) : FVec Ideal S2000x512 .f32) (ix2 r G)
      = if (g (ix2 r 0)).toInt = (G.val : ℤ) then (1 : EReal) else 0 := by
  rw [sitofp_apply, extui_apply, shapeCast_self]
  show FloatOps.sitofp .f32 ((IntOp.cmpi .eq (broadcastTo S2000x512 g broadcasts_S2000x1_S2000x512 (ix2 r G))
    (iota .tc S2000x512 32 [1] iota_S2000x512_d1_w32 (ix2 r G))).setWidth 32) = _
  rw [broadcastTo_apply g broadcasts_S2000x1_S2000x512 (ix2 r G) (ix2 r 0) (fun a => match a with | ⟨0, _⟩ => rfl | ⟨1, _⟩ => rfl),
    iota_single_apply]
  show (((((IntOp.cmpi .eq (g (ix2 r 0)) (BitVec.ofNat 32 G.val)).setWidth 32).toInt : ℤ) : ℝ) : EReal) = _
  by_cases h : g (ix2 r 0) = BitVec.ofNat 32 G.val
  · rw [if_pos ((Cert.Hand.SegSum.word_eq_iff_toInt _ G).mp h), h]; simp [IntOp.cmpi]
  · rw [if_neg (mt (Cert.Hand.SegSum.word_eq_iff_toInt _ G).mpr h)]; simp [IntOp.cmpi, beq_eq_false_iff_ne.mpr h]

def Pool (xa : S100000x64.Idx → EReal) (zT : S64x128.Idx → EReal) (zxa : S100000x128.Idx → EReal)
    (gia : S100000x1.Idx → BitVec 32) : S512x128.Idx → EReal := fun i =>
  ∑ n : Fin 100000, if (gia (ix2 n 0)).toInt = ((i 0).val : ℤ)
    then zxa (ix2 n (i 1)) * ∑ h : Fin 64, xa (ix2 n h) * zT (ix2 h (i 1)) else 0

theorem k1_pay1_apply (y : S512x128.Idx) : (k1_pay1 (F := Ideal)) y = 0 := Ideal.ofBits_zero_f32

theorem k1_pay2_apply (x : Vec Ideal S2000x64 .f32) (zT : Vec Ideal S64x128 .f32) (zx : Vec Ideal S2000x128 .f32)
    (g : Vec Ideal S2000x1 .i32) (prev : Vec Ideal S512x128 .f32) (G : Fin 512) (j : Fin 128) :
    k1_pay2 x zT zx g prev (ix2 G j) = prev (ix2 G j) + ∑ r : Fin 2000,
      (if (g (ix2 r 0)).toInt = (G.val : ℤ) then (1 : EReal) else 0) * (zx (ix2 r j) * ∑ h : Fin 64, x (ix2 r h) * zT (ix2 h j)) := by
  unfold k1_pay2
  rw [addf_apply, shapeCast_self, pool_apply]
  refine congrArg (prev (ix2 G j) + ·) (Finset.sum_congr rfl fun r _ => ?_)
  rw [truncf_apply, truncf_apply, onehot_apply, mulf_apply, shapeCast_self, matmul_plain_apply dot_S2000x64_S64x128_S2000x128_1_0_0_1_n_n rfl]
  simp only [truncf_apply, shapeCast_self]

theorem idx1 : ∀ t : Fin grid1.N,
    win1_3.index t (0 : Fin 2) = t.val ∧ win1_3.index t (1 : Fin 2) = 0
    ∧ win1_4.index t (0 : Fin 2) = 0 ∧ win1_4.index t (1 : Fin 2) = 0 := by decide +kernel

-- The graph-number column's row blocks and the whole output block; the other three windows' rectangles are region 0's.
theorem emb_g (t : Fin 50) (r : Fin 2000) : (win1_3.rect t).emb (ix2 r 0) = ix2 (row t r) 0 :=
  Shape.idx_ext₂ (by have := idx1 t; show win1_3.index t (0 : Fin 2) * 2000 + 1 * r.val = 2000 * t.val + r.val; omega)
    (by have := idx1 t; show win1_3.index t (1 : Fin 2) * 1 + 1 * 0 = 0; omega)
theorem emb_o (t : Fin 50) (y : S512x128.Idx) : (win1_4.rect t).emb y = y :=
  Shape.idx_ext₂ (by have := idx1 t; show win1_4.index t (0 : Fin 2) * 512 + 1 * (y 0).val = (y 0).val; omega)
    (by have := idx1 t; show win1_4.index t (1 : Fin 2) * 128 + 1 * (y 1).val = (y 1).val; omega)

section Acc

variable (xa : S100000x64.Idx → EReal) (zT : S64x128.Idx → EReal) (zxa : S100000x128.Idx → EReal) (gia : S100000x1.Idx → BitVec 32)
  (x : Fin 50 → Vec Ideal S2000x64 .f32) (z : Fin 50 → Vec Ideal S64x128 .f32) (zx : Fin 50 → Vec Ideal S2000x128 .f32)
  (g : Fin 50 → Vec Ideal S2000x1 .i32)
  (hx : ∀ t r h, x t (ix2 r h) = xa (ix2 (row t r) h)) (hz : ∀ t y, z t y = zT y)
  (hzx : ∀ t r j, zx t (ix2 r j) = zxa (ix2 (row t r) j)) (hg : ∀ t r, g t (ix2 r 0) = gia (ix2 (row t r) 0))
  (a : (n : ℕ) → n < 50 → Vec Ideal S512x128 .f32)
  (h0 : ∀ hn, a 0 hn = k1_pay2 (x ⟨0, hn⟩) (z ⟨0, hn⟩) (zx ⟨0, hn⟩) (g ⟨0, hn⟩) (k1_pay1 (F := Ideal)))
  (hs : ∀ n hn, a (n + 1) hn = k1_pay2 (x ⟨n + 1, hn⟩) (z ⟨n + 1, hn⟩) (zx ⟨n + 1, hn⟩) (g ⟨n + 1, hn⟩) (a n (Nat.lt_of_succ_lt hn)))

-- Row block t's share of the pooled entry (G, j).
def blockTerm (G : Fin 512) (j : Fin 128) (t : Fin 50) : EReal :=
  ∑ r : Fin 2000, (if (gia (ix2 (row t r) 0)).toInt = (G.val : ℤ) then (1 : EReal) else 0)
    * (zxa (ix2 (row t r) j) * ∑ h : Fin 64, xa (ix2 (row t r) h) * zT (ix2 h j))

include hx hz hzx hg in
theorem step_apply (t : Fin 50) (prev : Vec Ideal S512x128 .f32) (G : Fin 512) (j : Fin 128) :
    k1_pay2 (x t) (z t) (zx t) (g t) prev (ix2 G j) = prev (ix2 G j) + blockTerm xa zT zxa gia G j t := by
  rw [k1_pay2_apply]; simp only [hx, hz, hzx, hg]; rfl

include hx hz hzx hg h0 hs in
-- The accumulator after point n is the sum of the shares of the row blocks 0 … n.
theorem acc_apply (G : Fin 512) (j : Fin 128) : ∀ (n : ℕ) (hn : n < 50),
    a n hn (ix2 G j) = ∑ t : Fin (n + 1), blockTerm xa zT zxa gia G j ⟨t.val, by omega⟩
  | 0, hn => by
    rw [h0, step_apply xa zT zxa gia x z zx g hx hz hzx hg, k1_pay1_apply, zero_add, Fin.sum_univ_one]; rfl
  | n + 1, hn => by
    rw [hs, step_apply xa zT zxa gia x z zx g hx hz hzx hg, acc_apply G j n (Nat.lt_of_succ_lt hn), Fin.sum_univ_castSucc (n := n + 1)]; rfl

include hx hz hzx hg h0 hs in
-- After the last point it is the pooled array, read through the output window's block.
theorem acc_last (t : Fin 50) (ht : t.val % 50 = 49) (y : S512x128.Idx) :
    a t.val t.isLt y = Pool xa zT zxa gia ((win1_4.rect t).emb y) := by
  obtain ⟨G, j, rfl⟩ : ∃ (G : Fin 512) (j : Fin 128), y = ix2 G j := ⟨y 0, y 1, eq_ix2 y⟩
  obtain ⟨n, hn⟩ := t
  obtain rfl : n = 49 := by dsimp only at ht; omega
  rw [emb_o, acc_apply xa zT zxa gia x z zx g hx hz hzx hg a h0 hs]
  exact Cert.Hand.SegSum.pool_blocks (fun n => gia (ix2 n 0)) (fun n => zxa (ix2 n j) * ∑ h : Fin 64, xa (ix2 n h) * zT (ix2 h j)) G

end Acc

theorem mem_o {S : Finset S512x128.Idx} (t : Fin 50) (i : S512x128.Idx) (h : (win1_4.rect t).emb i ∈ S) : i ∈ S := emb_o t i ▸ h

variable (V : (c : Dev nD) → (b : Ref sig .tc) → Buf (Elt Ideal) ((c : Thread nD τ).loc b))

theorem read1_4 (t : Fin cfg1.N) (P : S512x128.Idx → EReal) (y : S512x128.Idx) :
    ((cfg1.win 4).blk t).view.read (Elt Ideal) P y = P ((win1_4.rect t).emb y) := rfl

theorem arr1_4 (c : Dev nD) :
    (dat1 V c).arrAt 4 cfg1.N = Pool (V c main_v18_0) (V c main_v17) (V c main_v18_1) (V c main_v58) :=
  (dat1 V c).arrAt_eq_of_cover 4 _
    (fun t hf => funext fun y => (acc_last _ _ _ _ (iblk1 V c 0) (iblk1 V c 1) (iblk1 V c 2) (iblk1 V c 3)
      (fun t r h => congrArg _ (emb_rows64 t r h)) (fun t y => congrArg _ (emb_z t y)) (fun t r j => congrArg _ (emb_rows128 t r j))
      (fun t r => congrArg _ (emb_g t r)) (acc1 V c) (acc1_zero V c) (acc1_succ V c) t ((flush1_4 t).mp hf) y).trans
        (read1_4 t _ y).symm)
    fun i => ⟨⟨49, by decide⟩, (flush1_4 _).mpr rfl, mem_o ⟨49, by decide⟩ i (View.emb_mem_set _ i)⟩

theorem read2_4 (t : Fin cfg2.N) (P : S512x128.Idx → EReal) (y : S512x128.Idx) :
    ((cfg2.win 4).blk t).view.read (Elt Ideal) P y = P ((win1_4.rect t).emb y) := rfl

theorem arr2_4 (c : Dev nD) :
    (dat2 V c).arrAt 4 cfg2.N = Pool (V c main_v37) (V c main_v21) (V c main_v18_1) (V c main_v58) :=
  (dat2 V c).arrAt_eq_of_cover 4 _
    (fun t hf => funext fun y => (acc_last _ _ _ _ (iblk2 V c 0) (iblk2 V c 1) (iblk2 V c 2) (iblk2 V c 3)
      (fun t r h => congrArg _ (emb_rows64 t r h)) (fun t y => congrArg _ (emb_z t y)) (fun t r j => congrArg _ (emb_rows128 t r j))
      (fun t r => congrArg _ (emb_g t r)) (acc2 V c) (acc2_zero V c) (acc2_succ V c) t ((flush2_4 t).mp hf) y).trans
        (read2_4 t _ y).symm)
    fun i => ⟨⟨49, by decide⟩, (flush2_4 _).mpr rfl, mem_o ⟨49, by decide⟩ i (View.emb_mem_set _ i)⟩

theorem read3_4 (t : Fin cfg3.N) (P : S512x128.Idx → EReal) (y : S512x128.Idx) :
    ((cfg3.win 4).blk t).view.read (Elt Ideal) P y = P ((win1_4.rect t).emb y) := rfl

theorem arr3_4 (c : Dev nD) :
    (dat3 V c).arrAt 4 cfg3.N = Pool (V c main_v50) (V c main_v24) (V c main_v18_1) (V c main_v58) :=
  (dat3 V c).arrAt_eq_of_cover 4 _
    (fun t hf => funext fun y => (acc_last _ _ _ _ (iblk3 V c 0) (iblk3 V c 1) (iblk3 V c 2) (iblk3 V c 3)
      (fun t r h => congrArg _ (emb_rows64 t r h)) (fun t y => congrArg _ (emb_z t y)) (fun t r j => congrArg _ (emb_rows128 t r j))
      (fun t r => congrArg _ (emb_g t r)) (acc3 V c) (acc3_zero V c) (acc3_succ V c) t ((flush3_4 t).mp hf) y).trans
        (read3_4 t _ y).symm)
    fun i => ⟨⟨49, by decide⟩, (flush3_4 _).mpr rfl, mem_o ⟨49, by decide⟩ i (View.emb_mem_set _ i)⟩

end Cert.KernelIdeal.Hand

end
-- ==== Proof.KIValue.lean ====
import proofs.«420008_j32530082300305_1_alg».proof.Proof.KIFrame
import proofs.«420008_j32530082300305_1_alg».proof.Proof.KIHost
import proofs.«420008_j32530082300305_1_alg».proof.Proof.KIVal1

noncomputable section

namespace Cert.KernelIdeal.Hand

open Idealize.ShloMosaic Idealize.ShloMosaic.ValueIdx Idealize.ShloMosaic.TcCoe
open Cert.KernelIdeal Cert.KernelIdeal.Gen
open Idealize.SL.Sem

variable (m : (ℓ : Loc nD τ sig) → Buf (Elt Ideal) ℓ)

abbrev vX0 (c : Dev nD) : Vec Ideal S100000x64 .f32 :=
  X0 (m ((c : Thread nD τ).loc main_arg0)) (kFcwT (m ((c : Thread nD τ).loc main_arg4))) (kFcb (m ((c : Thread nD τ).loc main_arg5)))
abbrev vZX (c : Dev nD) : Vec Ideal S100000x128 .f32 :=
  ZX0 (vX0 m c) (kZmatT (m ((c : Thread nD τ).loc main_arg3)))

theorem outs_v18_0_value (c : Dev nD) : outs m 4 main_v18_0 c = vX0 m c := by
  rw [outs_v18_0, arr0_4 (B3 m) c]
  show X0 (V3 m c main_arg0) (V3 m c main_v14) (V3 m c main_v15) = _
  rw [V3_main_arg0 m c, V3_main_v14 m c, V3_main_v15 m c]

theorem outs_v18_1_value (c : Dev nD) : outs m 4 main_v18_1 c = vZX m c := by
  rw [outs_v18_1, arr0_5 (B3 m) c]
  show ZX0 (X0 (V3 m c main_arg0) (V3 m c main_v14) (V3 m c main_v15)) (V3 m c main_v17) = _
  rw [V3_main_arg0 m c, V3_main_v14 m c, V3_main_v15 m c, V3_main_v17 m c]

abbrev vX1 (c : Dev nD) : Vec Ideal S100000x64 .f32 := kSpmm (m ((c : Thread nD τ).loc main_arg1)) (m ((c : Thread nD τ).loc main_arg13)) (m ((c : Thread nD τ).loc main_arg14)) (vX0 m c)
abbrev vX2 (c : Dev nD) : Vec Ideal S100000x64 .f32 := kSpmm (m ((c : Thread nD τ).loc main_arg1)) (m ((c : Thread nD τ).loc main_arg13)) (m ((c : Thread nD τ).loc main_arg14)) (vX1 m c)
abbrev vZ1T (c : Dev nD) : Vec Ideal S64x128 .f32 := kZmatT (kZnext (kA (m ((c : Thread nD τ).loc main_arg2))) (m ((c : Thread nD τ).loc main_arg3)))
abbrev vZ2T (c : Dev nD) : Vec Ideal S64x128 .f32 := kZmatT (kZnext (kA (m ((c : Thread nD τ).loc main_arg2))) (kZnext (kA (m ((c : Thread nD τ).loc main_arg2))) (m ((c : Thread nD τ).loc main_arg3))))
abbrev vP0 (c : Dev nD) : Vec Ideal S512x128 .f32 := Pool (vX0 m c) (kZmatT (m ((c : Thread nD τ).loc main_arg3))) (vZX m c) (kGi2 (m ((c : Thread nD τ).loc main_arg12)))
abbrev vP1 (c : Dev nD) : Vec Ideal S512x128 .f32 := Pool (vX1 m c) (vZ1T m c) (vZX m c) (kGi2 (m ((c : Thread nD τ).loc main_arg12)))
abbrev vP2 (c : Dev nD) : Vec Ideal S512x128 .f32 := Pool (vX2 m c) (vZ2T m c) (vZX m c) (kGi2 (m ((c : Thread nD τ).loc main_arg12)))

-- Each step region's output is the pooled array of the four arrays it is entered with.
theorem outs_v59_value (c : Dev nD) : outs m 6 main_v59 c = vP0 m c := by
  rw [outs_v59, arr1_4 (B5 m) c]
  show Pool (V5 m (outs m) c main_v18_0) (V5 m (outs m) c main_v17) (V5 m (outs m) c main_v18_1) (V5 m (outs m) c main_v58) = _
  rw [V5_main_v18_0, V5_main_v17, V5_main_v18_1, V5_main_v58, outs_v18_0_value, outs_v18_1_value]

theorem outs_v60_value (c : Dev nD) : outs m 7 main_v60 c = vP1 m c := by
  rw [outs_v60, arr2_4 (B6 m) c]
  show Pool (V6 m (outs m) c main_v37) (V6 m (outs m) c main_v21) (V6 m (outs m) c main_v18_1) (V6 m (outs m) c main_v58) = _
  rw [V6_main_v37, V6_main_v21, V6_main_v18_1, V6_main_v58, outs_v18_0_value, outs_v18_1_value]

theorem outs_v61_value (c : Dev nD) : outs m 8 main_v61 c = vP2 m c := by
  rw [outs_v61, arr3_4 (B7 m) c]
  show Pool (V7 m (outs m) c main_v50) (V7 m (outs m) c main_v24) (V7 m (outs m) c main_v18_1) (V7 m (outs m) c main_v58) = _
  rw [V7_main_v50, V7_main_v24, V7_main_v18_1, V7_main_v58, outs_v18_0_value, outs_v18_1_value]

theorem kernel_value (c : Dev nD) :
    V14 m (outs m) c main_v105
      = kTail (kHead (vP0 m c) (kNorm (m ((c : Thread nD τ).loc main_arg12)))) (kHead (vP1 m c) (kNorm (m ((c : Thread nD τ).loc main_arg12)))) (kHead (vP2 m c) (kNorm (m ((c : Thread nD τ).loc main_arg12))))
          (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) := by
  rw [V14_main_v105 m (outs m) c, outs_v59_value m c, outs_v60_value m c, outs_v61_value m c]

end Cert.KernelIdeal.Hand
end
-- ==== Proof.RefRun.lean ====
import proofs.«420008_j32530082300305_1_alg».proof.Proof.Gen.ReferenceIdeal
import proofs.«420008_j32530082300305_1_alg».proof.Proof.KIHost
import Idealize.ShloMosaic.Lib.StableHlo.Run

noncomputable section

namespace Cert.ReferenceIdeal.Hand

open Cert.ReferenceIdeal Cert.ReferenceIdeal.Gen Idealize.ShloMosaic Idealize.ShloMosaic.TcCoe Idealize.SL.Sem Idealize.ShloMosaic.StableHlo
open Cert.KernelIdeal.Hand (kA kNorm kSpmm kZnext kTail kBn kCat kLin1 kRelu1 kLin2 kLogSoftmax)

variable {F : FTy → Type} [FloatOps F]

theorem ok : ∀ y : Ref sig .tc, y.space ≠ .host ∧ (Proc.devRef (τ := τ) .tc y).isScoped = false := by decide

structure Op (F : FTy → Type) [FloatOps F] where
  y : Ref sig .tc
  op : HloOp τ sig (Elt F)
  w : op.writes = {Proc.devRef .tc y}
  s : op.bufs ⊆ tcRefs τ sig
  f : op.fresh = ∅

abbrev o0 (y : Ref sig .tc) (v : y.ty.Contents (Elt F)) : Op F :=
  ⟨y, nullary y v (ok y), nullary_writes .., nullary_bufs_sub .., rfl⟩
abbrev o1 (x y : Ref sig .tc) (g : x.ty.Contents (Elt F) → y.ty.Contents (Elt F)) : Op F :=
  ⟨y, unary x y g (ok x) (ok y), unary_writes .., unary_bufs_sub .., rfl⟩
abbrev o2 (a b y : Ref sig .tc) (g : a.ty.Contents (Elt F) → b.ty.Contents (Elt F) → y.ty.Contents (Elt F)) : Op F :=
  ⟨y, binary a b y g (ok a) (ok b) (ok y), binary_writes .., binary_bufs_sub .., rfl⟩
abbrev o3 (c a b y : Ref sig .tc) (g : c.ty.Contents (Elt F) → a.ty.Contents (Elt F) → b.ty.Contents (Elt F) → y.ty.Contents (Elt F)) : Op F :=
  ⟨y, ternary c a b y g (ok c) (ok a) (ok b) (ok y), ternary_writes .., ternary_bufs_sub .., rfl⟩
abbrev oN {n : Nat} (xs : Fin n → Ref sig .tc) (y : Ref sig .tc) (g : ((k : Fin n) → (xs k).ty.Contents (Elt F)) → y.ty.Contents (Elt F)) : Op F :=
  ⟨y, nary xs y g (fun k => ok (xs k)) (ok y), nary_writes .., nary_bufs_sub .., rfl⟩

-- A line of operations leaves every buffer none of them writes as it was.
theorem keep {l : List (Op F)} {Ws : List (Ref sig .tc)} (hl : l.map (·.y) = Ws) (V : Valuation τ sig (Elt F)) {r : Ref sig .tc} (h : r ∉ Ws) :
    after (l.map (·.op)) V (no_index (Proc.devRef .tc r)) = V (Proc.devRef .tc r) :=
  after_of_forall_not_mem _ V fun op ho hb => by
    obtain ⟨o, hol, rfl⟩ := List.mem_map.mp ho
    rw [o.w, Finset.mem_singleton] at hb
    exact h (hl ▸ List.mem_map.mpr ⟨o, hol, (Proc.devRef_injective _ hb).symm⟩)

def seg1 : List (Op F) :=
  [ o0 main_c (fun i => lit0 (S28.rowMajor i)),
    o0 main_c_0 (constantI S28 1 0#1),
    o0 main_c_1 (fun i => lit1 (S28.rowMajor i)),
    o0 main_c_2 (constantI S28 1 0#1),
    o0 main_cst (constant S_ .f32 0x00000000#32),
    o1 main_cst main_v0 (broadcastInDim S16x8x8 ![] bcast_S_S16x8x8),
    o0 main_call0_cst (constant S_ .f32 0x00000000#32),
    o1 main_call0_cst main_call0_v0 (broadcastInDim S16x28 ![] bcast_S_S16x28),
    o2 main_arg2 main_call0_v0 main_v1 maximumf,
    o0 main_c_3 (constantI S_ 32 8#32),
    o1 main_c_3 main_v2 (broadcastInDim S28 ![] bcast_S_S28),
    o2 main_c main_v2 main_v3 addi,
    o3 main_c_0 main_v3 main_c main_v4 select,
    o0 main_c_4 (constantI S_ 32 8#32),
    o1 main_c_4 main_v5 (broadcastInDim S28 ![] bcast_S_S28),
    o2 main_c_1 main_v5 main_v6 addi,
    o3 main_c_2 main_v6 main_c_1 main_v7 select,
    o1 main_v4 main_v8 (broadcastInDim S28x1 ![0] bcast_S28_S28x1_0),
    o1 main_v7 main_v9 (broadcastInDim S28x1 ![0] bcast_S28_S28x1_0),
    o2 main_v8 main_v9 main_v10 (fun a b => concatenate S28x2 1 [⟨S28x1, a⟩, ⟨S28x1, b⟩] concatenates_S28x1_S28x1_S28x2_d1),
    o3 main_v0 main_v10 main_v1 main_v11 (fun x i u => Host.scatter scatter_S16x8x8_S28x2_S16x28_0_12_12_1 (fun _ b => b) x i u),
    o1 main_v11 main_v12 (transpose S16x8x8 [0, 2, 1] · transposes_S16x8x8_S16x8x8_0_2_1),
    o2 main_v11 main_v12 main_v13 addf ]
def seg1_W : List (Ref sig .tc) := [main_c, main_c_0, main_c_1, main_c_2, main_cst, main_v0, main_call0_cst, main_call0_v0, main_v1, main_c_3, main_v2, main_v3, main_v4, main_c_4, main_v5, main_v6, main_v7, main_v8, main_v9, main_v10, main_v11, main_v12, main_v13]
theorem seg1_keep (V : Valuation τ sig (Elt F)) {r : Ref sig .tc} (h : r ∉ seg1_W) :
    after (seg1.map (·.op)) V (no_index (Proc.devRef .tc r)) = V (Proc.devRef .tc r) := keep rfl V h

def seg2 : List (Op F) :=
  [ o1 main_arg4 main_v14 (transpose S128x64 [1, 0] · transposes_S64x128_S128x64_1_0),
    o2 main_arg0 main_v14 main_v15 (fun l r => Host.dotGeneral dot_S100000x128_S128x64_S100000x64_1_0_0_1_n_n none l r),
    o1 main_arg5 main_v16 (broadcastInDim S1x64 ![1] bcast_S64_S1x64_1),
    o1 main_v16 main_v17 (broadcastInDim S100000x64 ![0, 1] bcast_S1x64_S100000x64_0_1),
    o2 main_v15 main_v17 main_v18 addf,
    o1 main_v18 main_v19 Host.negf,
    o1 main_v19 main_v20 Host.exp,
    o0 main_cst_5 (constant S_ .f32 0x3F800000#32),
    o1 main_cst_5 main_v21 (broadcastInDim S100000x64 ![] bcast_S_S100000x64),
    o2 main_v21 main_v20 main_v22 addf,
    o0 main_cst_6 (constant S_ .f32 0x3F800000#32),
    o1 main_cst_6 main_v23 (broadcastInDim S100000x64 ![] bcast_S_S100000x64),
    o2 main_v23 main_v22 main_v24 Host.divf,
    o2 main_arg3 main_v24 main_v25 (fun l r => Host.dotGeneral dot_S16x8x64_S100000x64_S16x8x100000_2_1_01_0_n_n none l r) ]
def seg2_W : List (Ref sig .tc) := [main_v14, main_v15, main_v16, main_v17, main_v18, main_v19, main_v20, main_cst_5, main_v21, main_v22, main_cst_6, main_v23, main_v24, main_v25]
theorem seg2_keep (V : Valuation τ sig (Elt F)) {r : Ref sig .tc} (h : r ∉ seg2_W) :
    after (seg2.map (·.op)) V (no_index (Proc.devRef .tc r)) = V (Proc.devRef .tc r) := keep rfl V h

def seg3 : List (Op F) :=
  [ o0 main_cst_7 (constant S_ .f32 0x3F800000#32),
    o1 main_cst_7 main_v26 (broadcastInDim S100000 ![] bcast_S_S100000),
    o0 main_cst_8 (constant S_ .f32 0x00000000#32),
    o1 main_cst_8 main_v27 (broadcastInDim S512 ![] bcast_S_S512),
    o1 main_arg12 main_v28 (broadcastInDim S100000x1 ![0] bcast_S100000_S100000x1_0),
    o3 main_v27 main_v28 main_v26 main_v29 (fun x i u => Host.scatterAdd scatter_S512_S100000x1_S100000_n_0_0_1 x i u),
    o0 main_cst_9 (constant S_ .f32 0x3F800000#32),
    o1 main_cst_9 main_v30 (broadcastInDim S512 ![] bcast_S_S512),
    o2 main_v29 main_v30 main_v31 maximumf,
    o1 main_v31 main_v32 (broadcastInDim S512x1 ![0] bcast_S512_S512x1_0) ]
def seg3_W : List (Ref sig .tc) := [main_cst_7, main_v26, main_cst_8, main_v27, main_v28, main_v29, main_cst_9, main_v30, main_v31, main_v32]
theorem seg3_keep (V : Valuation τ sig (Elt F)) {r : Ref sig .tc} (h : r ∉ seg3_W) :
    after (seg3.map (·.op)) V (no_index (Proc.devRef .tc r)) = V (Proc.devRef .tc r) := keep rfl V h

def seg4 : List (Op F) :=
  [ o2 main_v25 main_v25 main_v33 mulf,
    o1 main_v33 main_v34 (transpose S100000x16x8 [2, 0, 1] · transposes_S16x8x100000_S100000x16x8_2_0_1),
    o0 main_cst_10 (constant S_ .f32 0x00000000#32),
    o1 main_cst_10 main_v35 (broadcastInDim S512x16x8 ![] bcast_S_S512x16x8),
    o1 main_arg12 main_v36 (broadcastInDim S100000x1 ![0] bcast_S100000_S100000x1_0),
    o3 main_v35 main_v36 main_v34 main_v37 (fun x i u => Host.scatterAdd scatter_S512x16x8_S100000x1_S100000x16x8_12_0_0_1 x i u),
    o0 main_cst_11 (constant S_ .f32 0x00000000#32),
    o2 main_v37 main_cst_11 main_v38 (fun x v => Host.reduceAdd x v reducesTo_S512x16x8_S512x16_d2 h_S_),
    o1 main_v32 main_v39 (broadcastInDim S512x16 ![0, 1] bcast_S512x1_S512x16_0_1),
    o2 main_v38 main_v39 main_v40 Host.divf ]
def seg4_W : List (Ref sig .tc) := [main_v33, main_v34, main_cst_10, main_v35, main_v36, main_v37, main_cst_11, main_v38, main_v39, main_v40]
theorem seg4_keep (V : Valuation τ sig (Elt F)) {r : Ref sig .tc} (h : r ∉ seg4_W) :
    after (seg4.map (·.op)) V (no_index (Proc.devRef .tc r)) = V (Proc.devRef .tc r) := keep rfl V h

def seg5 : List (Op F) :=
  [ o1 main_arg1 main_v41 (broadcastInDim S1600000x1 ![0] bcast_S1600000_S1600000x1_0),
    o0 main_c_12 (constantI S_ 32 0#32),
    o1 main_c_12 main_v42 (broadcastInDim S1600000 ![] bcast_S_S1600000),
    o2 main_arg14 main_v42 main_v43 (cmpi .slt),
    o0 main_c_13 (constantI S_ 32 100000#32),
    o1 main_c_13 main_v44 (broadcastInDim S1600000 ![] bcast_S_S1600000),
    o2 main_arg14 main_v44 main_v45 addi,
    o3 main_v43 main_v45 main_arg14 main_v46 select,
    o1 main_v46 main_v47 (broadcastInDim S1600000x1 ![0] bcast_S1600000_S1600000x1_0),
    o2 main_v24 main_v47 main_v48 (fun x i => Host.gather gather_S100000x64_S1600000x1_S1600000x64_1_0_n_n_0_1_164 x i),
    o1 main_v41 main_v49 (broadcastInDim S1600000x64 ![0, 1] bcast_S1600000x1_S1600000x64_0_1),
    o2 main_v49 main_v48 main_v50 mulf,
    o0 main_cst_14 (constant S_ .f32 0x00000000#32),
    o1 main_cst_14 main_v51 (broadcastInDim S100000x64 ![] bcast_S_S100000x64),
    o1 main_arg13 main_v52 (broadcastInDim S1600000x1 ![0] bcast_S1600000_S1600000x1_0),
    o3 main_v51 main_v52 main_v50 main_v53 (fun x i u => Host.scatterAdd scatter_S100000x64_S1600000x1_S1600000x64_1_0_0_1 x i u) ]
def seg5_W : List (Ref sig .tc) := [main_v41, main_c_12, main_v42, main_v43, main_c_13, main_v44, main_v45, main_v46, main_v47, main_v48, main_v49, main_v50, main_cst_14, main_v51, main_v52, main_v53]
theorem seg5_keep (V : Valuation τ sig (Elt F)) {r : Ref sig .tc} (h : r ∉ seg5_W) :
    after (seg5.map (·.op)) V (no_index (Proc.devRef .tc r)) = V (Proc.devRef .tc r) := keep rfl V h

def seg6 : List (Op F) :=
  [ o2 main_v13 main_arg3 main_v54 (fun l r => Host.dotGeneral dot_S16x8x8_S16x8x64_S16x8x64_2_1_1_2_0_0 none l r),
    o2 main_v54 main_v53 main_v55 (fun l r => Host.dotGeneral dot_S16x8x64_S100000x64_S16x8x100000_2_1_01_0_n_n none l r),
    o2 main_v25 main_v55 main_v56 mulf,
    o1 main_v56 main_v57 (transpose S100000x16x8 [2, 0, 1] · transposes_S16x8x100000_S100000x16x8_2_0_1),
    o0 main_cst_15 (constant S_ .f32 0x00000000#32),
    o1 main_cst_15 main_v58 (broadcastInDim S512x16x8 ![] bcast_S_S512x16x8),
    o1 main_arg12 main_v59 (broadcastInDim S100000x1 ![0] bcast_S100000_S100000x1_0),
    o3 main_v58 main_v59 main_v57 main_v60 (fun x i u => Host.scatterAdd scatter_S512x16x8_S100000x1_S100000x16x8_12_0_0_1 x i u),
    o0 main_cst_16 (constant S_ .f32 0x00000000#32),
    o2 main_v60 main_cst_16 main_v61 (fun x v => Host.reduceAdd x v reducesTo_S512x16x8_S512x16_d2 h_S_),
    o1 main_v32 main_v62 (broadcastInDim S512x16 ![0, 1] bcast_S512x1_S512x16_0_1),
    o2 main_v61 main_v62 main_v63 Host.divf ]
def seg6_W : List (Ref sig .tc) := [main_v54, main_v55, main_v56, main_v57, main_cst_15, main_v58, main_v59, main_v60, main_cst_16, main_v61, main_v62, main_v63]
theorem seg6_keep (V : Valuation τ sig (Elt F)) {r : Ref sig .tc} (h : r ∉ seg6_W) :
    after (seg6.map (·.op)) V (no_index (Proc.devRef .tc r)) = V (Proc.devRef .tc r) := keep rfl V h

def seg7 : List (Op F) :=
  [ o1 main_arg1 main_v64 (broadcastInDim S1600000x1 ![0] bcast_S1600000_S1600000x1_0),
    o0 main_c_17 (constantI S_ 32 0#32),
    o1 main_c_17 main_v65 (broadcastInDim S1600000 ![] bcast_S_S1600000),
    o2 main_arg14 main_v65 main_v66 (cmpi .slt),
    o0 main_c_18 (constantI S_ 32 100000#32),
    o1 main_c_18 main_v67 (broadcastInDim S1600000 ![] bcast_S_S1600000),
    o2 main_arg14 main_v67 main_v68 addi,
    o3 main_v66 main_v68 main_arg14 main_v69 select,
    o1 main_v69 main_v70 (broadcastInDim S1600000x1 ![0] bcast_S1600000_S1600000x1_0),
    o2 main_v53 main_v70 main_v71 (fun x i => Host.gather gather_S100000x64_S1600000x1_S1600000x64_1_0_n_n_0_1_164 x i),
    o1 main_v64 main_v72 (broadcastInDim S1600000x64 ![0, 1] bcast_S1600000x1_S1600000x64_0_1),
    o2 main_v72 main_v71 main_v73 mulf,
    o0 main_cst_19 (constant S_ .f32 0x00000000#32),
    o1 main_cst_19 main_v74 (broadcastInDim S100000x64 ![] bcast_S_S100000x64),
    o1 main_arg13 main_v75 (broadcastInDim S1600000x1 ![0] bcast_S1600000_S1600000x1_0),
    o3 main_v74 main_v75 main_v73 main_v76 (fun x i u => Host.scatterAdd scatter_S100000x64_S1600000x1_S1600000x64_1_0_0_1 x i u) ]
def seg7_W : List (Ref sig .tc) := [main_v64, main_c_17, main_v65, main_v66, main_c_18, main_v67, main_v68, main_v69, main_v70, main_v71, main_v72, main_v73, main_cst_19, main_v74, main_v75, main_v76]
theorem seg7_keep (V : Valuation τ sig (Elt F)) {r : Ref sig .tc} (h : r ∉ seg7_W) :
    after (seg7.map (·.op)) V (no_index (Proc.devRef .tc r)) = V (Proc.devRef .tc r) := keep rfl V h

def seg8 : List (Op F) :=
  [ o2 main_v13 main_v54 main_v77 (fun l r => Host.dotGeneral dot_S16x8x8_S16x8x64_S16x8x64_2_1_1_2_0_0 none l r),
    o2 main_v77 main_v76 main_v78 (fun l r => Host.dotGeneral dot_S16x8x64_S100000x64_S16x8x100000_2_1_01_0_n_n none l r),
    o2 main_v25 main_v78 main_v79 mulf,
    o1 main_v79 main_v80 (transpose S100000x16x8 [2, 0, 1] · transposes_S16x8x100000_S100000x16x8_2_0_1),
    o0 main_cst_20 (constant S_ .f32 0x00000000#32),
    o1 main_cst_20 main_v81 (broadcastInDim S512x16x8 ![] bcast_S_S512x16x8),
    o1 main_arg12 main_v82 (broadcastInDim S100000x1 ![0] bcast_S100000_S100000x1_0),
    o3 main_v81 main_v82 main_v80 main_v83 (fun x i u => Host.scatterAdd scatter_S512x16x8_S100000x1_S100000x16x8_12_0_0_1 x i u),
    o0 main_cst_21 (constant S_ .f32 0x00000000#32),
    o2 main_v83 main_cst_21 main_v84 (fun x v => Host.reduceAdd x v reducesTo_S512x16x8_S512x16_d2 h_S_),
    o1 main_v32 main_v85 (broadcastInDim S512x16 ![0, 1] bcast_S512x1_S512x16_0_1),
    o2 main_v84 main_v85 main_v86 Host.divf ]
def seg8_W : List (Ref sig .tc) := [main_v77, main_v78, main_v79, main_v80, main_cst_20, main_v81, main_v82, main_v83, main_cst_21, main_v84, main_v85, main_v86]
theorem seg8_keep (V : Valuation τ sig (Elt F)) {r : Ref sig .tc} (h : r ∉ seg8_W) :
    after (seg8.map (·.op)) V (no_index (Proc.devRef .tc r)) = V (Proc.devRef .tc r) := keep rfl V h

def seg9 : List (Op F) :=
  [ oN ![main_v40, main_v63, main_v86] main_v87 (fun u => concatenate S512x48 1 [⟨S512x16, u 0⟩, ⟨S512x16, u 1⟩, ⟨S512x16, u 2⟩] concatenates_S512x16_S512x16_S512x16_S512x48_d1),
    o0 main_cst_22 (constant S_ .f32 0x00000000#32),
    o2 main_v87 main_cst_22 main_v88 (fun x v => Host.reduceAdd x v reducesTo_S512x48_S48_d0 h_S_),
    o0 main_cst_23 (constant S_ .f32 0x44000000#32),
    o1 main_cst_23 main_v89 (broadcastInDim S48 ![] bcast_S_S48),
    o2 main_v88 main_v89 main_v90 Host.divf,
    o0 main_c_24 (constantI S_ 32 0#32),
    o0 main_call1_cst (constant S_ .f32 0x00000000#32),
    o2 main_v87 main_call1_cst main_call1_v0 (fun x v => Host.reduceAdd x v reducesTo_S512x48_S48_d0 h_S_),
    o1 main_call1_v0 main_call1_v1 (broadcastInDim S1x48 ![1] bcast_S48_S1x48_1),
    o0 main_call1_cst_0 (constant S_ .f32 0x44000000#32),
    o1 main_call1_cst_0 main_call1_v2 (broadcastInDim S1x48 ![] bcast_S_S1x48),
    o2 main_call1_v1 main_call1_v2 main_call1_v3 Host.divf,
    o1 main_call1_v3 main_call1_v4 (broadcastInDim S512x48 ![0, 1] bcast_S1x48_S512x48_0_1),
    o2 main_v87 main_call1_v4 main_call1_v5 subf,
    o2 main_call1_v5 main_call1_v5 main_call1_v6 mulf,
    o1 main_c_24 main_call1_v7 (sitofp .f32),
    o0 main_call1_cst_1 (constant S_ .f32 0x44000000#32),
    o2 main_call1_cst_1 main_call1_v7 main_call1_v8 subf,
    o0 main_call1_cst_2 (constant S_ .f32 0x00000000#32),
    o2 main_call1_v6 main_call1_cst_2 main_call1_v9 (fun x v => Host.reduceAdd x v reducesTo_S512x48_S48_d0 h_S_),
    o1 main_call1_v8 main_call1_v10 (broadcastInDim S48 ![] bcast_S_S48),
    o2 main_call1_v9 main_call1_v10 main_call1_v11 Host.divf,
    o0 main_call1_cst_3 (constant S_ .f32 0x00000000#32),
    o2 main_call1_v8 main_call1_cst_3 main_call1_v12 (cmpf .ogt),
    o0 main_call1_cst_4 (constant S_ .f32 0x7FC00000#32),
    o1 main_call1_cst_4 main_call1_call0_v0 id,
    o1 main_call1_call0_v0 main_call1_call0_v1 (broadcastInDim S48 ![] bcast_S_S48),
    o3 main_call1_v12 main_call1_v11 main_call1_call0_v1 main_v91 (fun p a b => select (broadcastInDim S48 ![] bcast_S_S48 p) a b),
    o1 main_v90 main_v92 (broadcastInDim S1x48 ![1] bcast_S48_S1x48_1),
    o1 main_v92 main_v93 (broadcastInDim S512x48 ![0, 1] bcast_S1x48_S512x48_0_1),
    o2 main_v87 main_v93 main_v94 subf,
    o1 main_arg6 main_v95 (broadcastInDim S1x48 ![1] bcast_S48_S1x48_1),
    o1 main_v95 main_v96 (broadcastInDim S512x48 ![0, 1] bcast_S1x48_S512x48_0_1),
    o2 main_v96 main_v94 main_v97 mulf,
    o0 main_cst_25 (constant S_ .f32 0x3727C5AC#32),
    o1 main_cst_25 main_v98 (broadcastInDim S48 ![] bcast_S_S48),
    o2 main_v91 main_v98 main_v99 addf,
    o1 main_v99 main_v100 Host.sqrt,
    o1 main_v100 main_v101 (broadcastInDim S1x48 ![1] bcast_S48_S1x48_1),
    o1 main_v101 main_v102 (broadcastInDim S512x48 ![0, 1] bcast_S1x48_S512x48_0_1),
    o2 main_v97 main_v102 main_v103 Host.divf,
    o1 main_arg7 main_v104 (broadcastInDim S1x48 ![1] bcast_S48_S1x48_1),
    o1 main_v104 main_v105 (broadcastInDim S512x48 ![0, 1] bcast_S1x48_S512x48_0_1),
    o2 main_v103 main_v105 main_v106 addf ]
def seg9_W : List (Ref sig .tc) := [main_v87, main_cst_22, main_v88, main_cst_23, main_v89, main_v90, main_c_24, main_call1_cst, main_call1_v0, main_call1_v1, main_call1_cst_0, main_call1_v2, main_call1_v3, main_call1_v4, main_call1_v5, main_call1_v6, main_call1_v7, main_call1_cst_1, main_call1_v8, main_call1_cst_2, main_call1_v9, main_call1_v10, main_call1_v11, main_call1_cst_3, main_call1_v12, main_call1_cst_4, main_call1_call0_v0, main_call1_call0_v1, main_v91, main_v92, main_v93, main_v94, main_v95, main_v96, main_v97, main_cst_25, main_v98, main_v99, main_v100, main_v101, main_v102, main_v103, main_v104, main_v105, main_v106]
theorem seg9_keep (V : Valuation τ sig (Elt F)) {r : Ref sig .tc} (h : r ∉ seg9_W) :
    after (seg9.map (·.op)) V (no_index (Proc.devRef .tc r)) = V (Proc.devRef .tc r) := keep rfl V h

def seg10 : List (Op F) :=
  [ o1 main_arg8 main_v107 (transpose S48x128 [1, 0] · transposes_S128x48_S48x128_1_0),
    o2 main_v106 main_v107 main_v108 (fun l r => Host.dotGeneral dot_S512x48_S48x128_S512x128_1_0_0_1_n_n none l r),
    o1 main_arg9 main_v109 (broadcastInDim S1x128 ![1] bcast_S128_S1x128_1),
    o1 main_v109 main_v110 (broadcastInDim S512x128 ![0, 1] bcast_S1x128_S512x128_0_1),
    o2 main_v108 main_v110 main_v111 addf,
    o0 main_call2_cst (constant S_ .f32 0x00000000#32),
    o1 main_call2_cst main_call2_v0 (broadcastInDim S512x128 ![] bcast_S_S512x128),
    o2 main_v111 main_call2_v0 main_v112 maximumf,
    o1 main_arg10 main_v113 (transpose S128x10 [1, 0] · transposes_S10x128_S128x10_1_0),
    o2 main_v112 main_v113 main_v114 (fun l r => Host.dotGeneral dot_S512x128_S128x10_S512x10_1_0_0_1_n_n none l r),
    o1 main_arg11 main_v115 (broadcastInDim S1x10 ![1] bcast_S10_S1x10_1),
    o1 main_v115 main_v116 (broadcastInDim S512x10 ![0, 1] bcast_S1x10_S512x10_0_1),
    o2 main_v114 main_v116 main_v117 addf ]
def seg10_W : List (Ref sig .tc) := [main_v107, main_v108, main_v109, main_v110, main_v111, main_call2_cst, main_call2_v0, main_v112, main_v113, main_v114, main_v115, main_v116, main_v117]
theorem seg10_keep (V : Valuation τ sig (Elt F)) {r : Ref sig .tc} (h : r ∉ seg10_W) :
    after (seg10.map (·.op)) V (no_index (Proc.devRef .tc r)) = V (Proc.devRef .tc r) := keep rfl V h

def seg11 : List (Op F) :=
  [ o0 main_call3_cst (constant S_ .f32 0xFF800000#32),
    o2 main_v117 main_call3_cst main_call3_v0 (fun x v => Host.reduce FloatOps.maximumf x v reducesTo_S512x10_S512_d1 h_S_),
    o0 main_call3_cst_0 (constant S_ .f32 0xFF800000#32),
    o1 main_call3_cst_0 main_call3_v1 (broadcastInDim S512 ![] bcast_S_S512),
    o2 main_call3_v1 main_call3_v0 main_call3_v2 maximumf,
    o1 main_call3_v2 main_call3_v3 (broadcastInDim S512x1 ![0] bcast_S512_S512x1_0),
    o1 main_call3_v3 main_call3_v4 (broadcastInDim S512x10 ![0, 1] bcast_S512x1_S512x10_0_1),
    o2 main_v117 main_call3_v4 main_call3_v5 subf,
    o1 main_call3_v5 main_call3_v6 Host.exp,
    o0 main_call3_cst_1 (constant S_ .f32 0x00000000#32),
    o2 main_call3_v6 main_call3_cst_1 main_call3_v7 (fun x v => Host.reduceAdd x v reducesTo_S512x10_S512_d1 h_S_),
    o1 main_call3_v7 main_call3_v8 (broadcastInDim S512x1 ![0] bcast_S512_S512x1_0),
    o1 main_call3_v8 main_call3_v9 Host.log,
    o1 main_call3_v9 main_call3_v10 (broadcastInDim S512x10 ![0, 1] bcast_S512x1_S512x10_0_1),
    o2 main_call3_v5 main_call3_v10 main_v118 subf ]
def seg11_W : List (Ref sig .tc) := [main_call3_cst, main_call3_v0, main_call3_cst_0, main_call3_v1, main_call3_v2, main_call3_v3, main_call3_v4, main_call3_v5, main_call3_v6, main_call3_cst_1, main_call3_v7, main_call3_v8, main_call3_v9, main_call3_v10, main_v118]
theorem seg11_keep (V : Valuation τ sig (Elt F)) {r : Ref sig .tc} (h : r ∉ seg11_W) :
    after (seg11.map (·.op)) V (no_index (Proc.devRef .tc r)) = V (Proc.devRef .tc r) := keep rfl V h

def refX (a0 : Vec F S100000x128 .f32) (a4 : Vec F S64x128 .f32) (a5 : Vec F S64 .f32) : Vec F S100000x64 .f32 :=
  Host.divf (broadcastInDim S100000x64 ![] bcast_S_S100000x64 (constant S_ .f32 0x3F800000#32))
    (addf (broadcastInDim S100000x64 ![] bcast_S_S100000x64 (constant S_ .f32 0x3F800000#32))
      (Host.exp (Host.negf (addf
        (Host.dotGeneral dot_S100000x128_S128x64_S100000x64_1_0_0_1_n_n none a0 (transpose S128x64 [1, 0] a4 transposes_S64x128_S128x64_1_0))
        (broadcastInDim S100000x64 ![0, 1] bcast_S1x64_S100000x64_0_1 (broadcastInDim S1x64 ![1] bcast_S64_S1x64_1 a5))))))

def refZX (z : Vec F S16x8x64 .f32) (x : Vec F S100000x64 .f32) : Vec F S16x8x100000 .f32 :=
  Host.dotGeneral dot_S16x8x64_S100000x64_S16x8x100000_2_1_01_0_n_n none z x

def refPool (a12 : Vec F S100000 .i32) (zx t : Vec F S16x8x100000 .f32) : Vec F S512x16x8 .f32 :=
  Host.scatterAdd scatter_S512x16x8_S100000x1_S100000x16x8_12_0_0_1
    (broadcastInDim S512x16x8 ![] bcast_S_S512x16x8 (constant S_ .f32 0x00000000#32))
    (broadcastInDim S100000x1 ![0] bcast_S100000_S100000x1_0 a12)
    (transpose S100000x16x8 [2, 0, 1] (mulf zx t) transposes_S16x8x100000_S100000x16x8_2_0_1)

def refHead (P : Vec F S512x16x8 .f32) (nrm : Vec F S512x1 .f32) : Vec F S512x16 .f32 :=
  Host.divf (Host.reduceAdd P (constant S_ .f32 0x00000000#32) reducesTo_S512x16x8_S512x16_d2 h_S_)
    (broadcastInDim S512x16 ![0, 1] bcast_S512x1_S512x16_0_1 nrm)

-- The result as a function of the fifteen arguments: the stages shared with the other program are that program's own.
def refOut (a0 : Vec F S100000x128 .f32) (a1 : Vec F S1600000 .f32) (a2 : Vec F S16x28 .f32) (a3 : Vec F S16x8x64 .f32) (a4 : Vec F S64x128 .f32) (a5 : Vec F S64 .f32) (a6 : Vec F S48 .f32) (a7 : Vec F S48 .f32) (a8 : Vec F S128x48 .f32) (a9 : Vec F S128 .f32) (a10 : Vec F S10x128 .f32) (a11 : Vec F S10 .f32) (a12 : Vec F S100000 .i32) (a13 : Vec F S1600000 .i32) (a14 : Vec F S1600000 .i32) : Vec F S512x10 .f32 :=
  let x0 := refX a0 a4 a5
  let zx := refZX a3 x0
  let x1 := kSpmm a1 a13 a14 x0
  let z1 := kZnext (kA a2) a3
  let h (t : Vec F S16x8x100000 .f32) := refHead (refPool a12 zx t) (kNorm a12)
  kTail (h zx) (h (refZX z1 x1)) (h (refZX (kZnext (kA a2) z1) (kSpmm a1 a13 a14 x1))) a6 a7 a8 a9 a10 a11

local macro "op_results" : tactic =>
  `(tactic| (simp only [List.map_cons, List.map_nil, o0, o1, o2, o3, oN]; after_results_simp; rfl))

theorem seg1_v13 (W : Valuation τ sig (Elt F)) :
    after (seg1.map (·.op)) W (no_index (Proc.devRef .tc main_v13)) = kA (W (Proc.devRef .tc main_arg2)) := by
  unfold seg1; op_results
theorem seg2_v24 (W : Valuation τ sig (Elt F)) :
    after (seg2.map (·.op)) W (no_index (Proc.devRef .tc main_v24)) = refX (W (Proc.devRef .tc main_arg0)) (W (Proc.devRef .tc main_arg4)) (W (Proc.devRef .tc main_arg5)) := by
  unfold seg2; op_results
theorem seg2_v25 (W : Valuation τ sig (Elt F)) :
    after (seg2.map (·.op)) W (no_index (Proc.devRef .tc main_v25)) = refZX (W (Proc.devRef .tc main_arg3)) (refX (W (Proc.devRef .tc main_arg0)) (W (Proc.devRef .tc main_arg4)) (W (Proc.devRef .tc main_arg5))) := by
  unfold seg2; op_results
theorem seg3_v32 (W : Valuation τ sig (Elt F)) :
    after (seg3.map (·.op)) W (no_index (Proc.devRef .tc main_v32)) = kNorm (W (Proc.devRef .tc main_arg12)) := by
  unfold seg3; op_results
theorem seg4_v40 (W : Valuation τ sig (Elt F)) :
    after (seg4.map (·.op)) W (no_index (Proc.devRef .tc main_v40)) = refHead (refPool (W (Proc.devRef .tc main_arg12)) (W (Proc.devRef .tc main_v25)) (W (Proc.devRef .tc main_v25))) (W (Proc.devRef .tc main_v32)) := by
  unfold seg4; op_results
theorem seg5_v53 (W : Valuation τ sig (Elt F)) :
    after (seg5.map (·.op)) W (no_index (Proc.devRef .tc main_v53)) = kSpmm (W (Proc.devRef .tc main_arg1)) (W (Proc.devRef .tc main_arg13)) (W (Proc.devRef .tc main_arg14)) (W (Proc.devRef .tc main_v24)) := by
  unfold seg5; op_results
theorem seg6_v54 (W : Valuation τ sig (Elt F)) :
    after (seg6.map (·.op)) W (no_index (Proc.devRef .tc main_v54)) = kZnext (W (Proc.devRef .tc main_v13)) (W (Proc.devRef .tc main_arg3)) := by
  unfold seg6; op_results
theorem seg6_v63 (W : Valuation τ sig (Elt F)) :
    after (seg6.map (·.op)) W (no_index (Proc.devRef .tc main_v63)) = refHead (refPool (W (Proc.devRef .tc main_arg12)) (W (Proc.devRef .tc main_v25)) (refZX (kZnext (W (Proc.devRef .tc main_v13)) (W (Proc.devRef .tc main_arg3))) (W (Proc.devRef .tc main_v53)))) (W (Proc.devRef .tc main_v32)) := by
  unfold seg6; op_results
theorem seg7_v76 (W : Valuation τ sig (Elt F)) :
    after (seg7.map (·.op)) W (no_index (Proc.devRef .tc main_v76)) = kSpmm (W (Proc.devRef .tc main_arg1)) (W (Proc.devRef .tc main_arg13)) (W (Proc.devRef .tc main_arg14)) (W (Proc.devRef .tc main_v53)) := by
  unfold seg7; op_results
theorem seg8_v86 (W : Valuation τ sig (Elt F)) :
    after (seg8.map (·.op)) W (no_index (Proc.devRef .tc main_v86)) = refHead (refPool (W (Proc.devRef .tc main_arg12)) (W (Proc.devRef .tc main_v25)) (refZX (kZnext (W (Proc.devRef .tc main_v13)) (W (Proc.devRef .tc main_v54))) (W (Proc.devRef .tc main_v76)))) (W (Proc.devRef .tc main_v32)) := by
  unfold seg8; op_results
theorem seg9_v106 (W : Valuation τ sig (Elt F)) :
    after (seg9.map (·.op)) W (no_index (Proc.devRef .tc main_v106)) = kBn (kCat (W (Proc.devRef .tc main_v40)) (W (Proc.devRef .tc main_v63)) (W (Proc.devRef .tc main_v86))) (W (Proc.devRef .tc main_arg6)) (W (Proc.devRef .tc main_arg7)) := by
  unfold seg9; op_results
theorem seg10_v117 (W : Valuation τ sig (Elt F)) :
    after (seg10.map (·.op)) W (no_index (Proc.devRef .tc main_v117)) = kLin2 (kRelu1 (kLin1 (W (Proc.devRef .tc main_v106)) (W (Proc.devRef .tc main_arg8)) (W (Proc.devRef .tc main_arg9)))) (W (Proc.devRef .tc main_arg10)) (W (Proc.devRef .tc main_arg11)) := by
  unfold seg10; op_results
theorem seg11_v118 (W : Valuation τ sig (Elt F)) :
    after (seg11.map (·.op)) W (no_index (Proc.devRef .tc main_v118)) = kLogSoftmax (W (Proc.devRef .tc main_v117)) := by
  unfold seg11; op_results

def prog : List (Op F) := seg1 ++ seg2 ++ seg3 ++ seg4 ++ seg5 ++ seg6 ++ seg7 ++ seg8 ++ seg9 ++ seg10 ++ seg11

theorem main_eq (c : Dev nD) : main (F := F) c = seq (prog.map (·.op)) := rfl

theorem scopedRefs_eq : (Finset.univ.filter fun b : Ref sig .tc => b.isScoped) = ∅ := by decide
theorem scopedSems_eq : (Finset.univ.filter fun sm : SemLoc sig => sm.isScoped .tc) = ∅ := by decide

-- Each stretch's result read off in turn, the buffers between carried across the stretches that do not write them.
theorem out_eq (V : Valuation τ sig (Elt F)) :
    after (prog.map (·.op)) V (Proc.devRef .tc main_v118) = refOut (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) (V (Proc.devRef .tc main_arg11)) (V (Proc.devRef .tc main_arg12)) (V (Proc.devRef .tc main_arg13)) (V (Proc.devRef .tc main_arg14)) := by
  simp only [prog, List.map_append, after_append]
  simp (disch := decide) only [seg11_v118, seg10_v117, seg9_v106, seg8_v86, seg7_v76, seg6_v63, seg6_v54, seg5_v53, seg4_v40, seg3_v32, seg2_v25, seg2_v24, seg1_v13, seg1_keep, seg2_keep, seg3_keep, seg4_keep, seg5_keep, seg6_keep, seg7_keep, seg8_keep, seg9_keep, seg10_keep, seg11_keep]
  rfl

theorem arg_eq (V : Valuation τ sig (Elt F)) {r : Ref sig .tc} (h : r ∉ seg1_W ++ seg2_W ++ seg3_W ++ seg4_W ++ seg5_W ++ seg6_W ++ seg7_W ++ seg8_W ++ seg9_W ++ seg10_W ++ seg11_W) :
    after (prog.map (·.op)) V (Proc.devRef .tc r) = V (Proc.devRef .tc r) := keep rfl V h

theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v118) = refOut (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14) :=
  (θ_run defs _ _).mono (fun _ h c => by
      refine ⟨(h c _).trans (out_eq (launchContents m c)), ?_⟩
      repeat' constructor
      all_goals exact (h c _).trans (arg_eq (launchContents m c) (by decide)))
    (run_seq scopedRefs_eq scopedSems_eq defs main (fun _ => prog.map (·.op)) main_eq
      (fun _ => List.forall_iff_forall_mem.mpr fun _ ho => by obtain ⟨o, _, rfl⟩ := List.mem_map.mp ho; exact o.s) m ρ
      (fun _ _ ho => by obtain ⟨o, _, rfl⟩ := List.mem_map.mp ho; exact o.f))

end Cert.ReferenceIdeal.Hand

end
-- ==== Proof.BridgeIdx.lean ====
import proofs.«420008_j32530082300305_1_alg».proof.KernelIdeal
import proofs.«420008_j32530082300305_1_alg».proof.ReferenceIdeal
import Idealize.ShloMosaic.Lib.ValueIdx
import Idealize.ShloMosaic.Lib.Pipeline.Value
import Idealize.ShloMosaic.Lib.ValueLayout
import Idealize.ShloMosaic.PureOps.Ideal.Laws
import Idealize.ShloMosaic.Lib.IdealHost
import proofs.«420008_j32530082300305_1_alg».proof.Proof.LibSegSum

noncomputable section

namespace Cert.Hand.BridgeIdx

open Idealize.ShloMosaic Idealize.ShloMosaic.ValueIdx

section KernelSide
variable [Cert.KernelIdeal.Facts₀]
open Cert.KernelIdeal.Facts₀

theorem flatT_apply (z : Vec Ideal Cert.KernelIdeal.S16x8x64 .f32) (h : Fin 64) (g : Fin 16) (k : Fin 8) :
    transpose Cert.KernelIdeal.S64x128 [1, 0] (shapeCast Cert.KernelIdeal.S128x64 z shapeCasts_S16x8x64_S128x64)
        transposes_S128x64_S64x128_1_0 (ix2 h (⟨8 * g.val + k.val, by omega⟩ : Fin 128))
      = z (ix3 g k h) := by
  rw [transpose_ix2_apply]
  exact shapeCast_apply z _ _ _ (by
    rw [Shape.rowMajor_val_three, Shape.rowMajor_val_two]
    show (g.val * 8 + k.val) * 64 + h.val = (8 * g.val + k.val) * 64 + h.val
    omega)

theorem wT_apply (a4 : Vec Ideal Cert.KernelIdeal.S64x128 .f32) (k : Fin 128) (h : Fin 64) :
    transpose Cert.KernelIdeal.S128x64 [1, 0] a4 transposes_S64x128_S128x64_1_0 (ix2 k h) = a4 (ix2 h k) :=
  transpose_ix2_apply a4 _ k h

theorem brow_apply (a5 : Vec Ideal Cert.KernelIdeal.S64 .f32) (u : Fin 1) (h : Fin 64) :
    shapeCast Cert.KernelIdeal.S1x64 a5 shapeCasts_S64_S1x64 (ix2 u h) = a5 (ix1 h) :=
  shapeCast_a_1a_apply a5 _ u h

theorem idcol_apply (a12 : IVec Cert.KernelIdeal.S100000 32) (n : Fin 100000) (u : Fin 1) :
    shapeCast Cert.KernelIdeal.S100000x1 a12 shapeCasts_S100000_S100000x1 (ix2 n u) = a12 (ix1 n) :=
  shapeCast_apply a12 _ _ _ (by
    have hu : u.val = 0 := by omega
    rw [Shape.rowMajor_val_one, Shape.rowMajor_val_two]
    show n.val = n.val * 1 + u.val
    omega)

theorem pool3_apply (P : Vec Ideal Cert.KernelIdeal.S512x128 .f32) (G : Fin 512) (g : Fin 16) (k : Fin 8) :
    shapeCast Cert.KernelIdeal.S512x16x8 P shapeCasts_S512x128_S512x16x8 (ix3 G g k)
      = P (ix2 G (⟨8 * g.val + k.val, by omega⟩ : Fin 128)) :=
  shapeCast_apply P _ _ _ (by
    rw [Shape.rowMajor_val_two, Shape.rowMajor_val_three]
    show G.val * 128 + (8 * g.val + k.val) = (G.val * 16 + g.val) * 8 + k.val
    omega)

end KernelSide

section ReferenceSide
variable [Cert.ReferenceIdeal.Facts₀]
open Cert.ReferenceIdeal.Facts₀

theorem dotZX_apply (z : FVec Ideal Cert.ReferenceIdeal.S16x8x64 .f32) (x : FVec Ideal Cert.ReferenceIdeal.S100000x64 .f32)
    (g : Fin 16) (k : Fin 8) (n : Fin 100000) :
    Host.dotGeneral (F := Ideal) Cert.ReferenceIdeal.dot_S16x8x64_S100000x64_S16x8x100000_2_1_01_0_n_n none z x (ix3 g k n)
      = ∑ h : Fin 64, z (ix3 g k h) * x (ix2 n h) := by
  simp only [Host.dotGeneral]
  rw [Ideal.dotGeneral_apply,
    ← Equiv.sum_comp (contrEquiv1 Cert.ReferenceIdeal.dot_S16x8x64_S100000x64_S16x8x100000_2_1_01_0_n_n 64 rfl rfl).symm]
  refine Finset.sum_congr rfl fun h _ => ?_
  have hk := contrEquiv1_symm_val Cert.ReferenceIdeal.dot_S16x8x64_S100000x64_S16x8x100000_2_1_01_0_n_n 64 rfl rfl h
  congr 1
  · refine congrArg z (funext fun a => Fin.ext ?_)
    match a with
    | 0 | 1 => unfold DotDims.lhsIdx; rw [dif_neg (by exact of_decide_eq_true rfl), dif_pos (by exact of_decide_eq_true rfl)]; rfl
    | 2 => exact (Cert.ReferenceIdeal.dot_S16x8x64_S100000x64_S16x8x100000_2_1_01_0_n_n.lhsIdx_val_of_single (cl := 2) rfl _ _).trans hk
  · refine congrArg x (funext fun a => Fin.ext ?_)
    match a with
    | 0 => unfold DotDims.rhsIdx; rw [dif_neg (by exact of_decide_eq_true rfl), dif_pos (by exact of_decide_eq_true rfl)]; rfl
    | 1 => exact (Cert.ReferenceIdeal.dot_S16x8x64_S100000x64_S16x8x100000_2_1_01_0_n_n.rhsIdx_val_of_single (cr := 1) rfl _ _).trans hk

theorem dotXW_apply (a0 : FVec Ideal Cert.ReferenceIdeal.S100000x128 .f32) (w : FVec Ideal Cert.ReferenceIdeal.S128x64 .f32)
    (n : Fin 100000) (h : Fin 64) :
    Host.dotGeneral (F := Ideal) Cert.ReferenceIdeal.dot_S100000x128_S128x64_S100000x64_1_0_0_1_n_n none a0 w (ix2 n h) = ∑ k : Fin 128, a0 (ix2 n k) * w (ix2 k h) := by
  simp only [Host.dotGeneral]
  rw [Ideal.dotGeneral_apply, ← Equiv.sum_comp (contrEquiv1 Cert.ReferenceIdeal.dot_S100000x128_S128x64_S100000x64_1_0_0_1_n_n 128 rfl rfl).symm]
  refine Finset.sum_congr rfl fun k _ => ?_
  have hk := contrEquiv1_symm_val Cert.ReferenceIdeal.dot_S100000x128_S128x64_S100000x64_1_0_0_1_n_n 128 rfl rfl k
  congr 1
  · refine congrArg a0 (funext fun a => Fin.ext ?_)
    match a with
    | 0 => unfold DotDims.lhsIdx; rw [dif_neg (by exact of_decide_eq_true rfl), dif_pos (by exact of_decide_eq_true rfl)]; rfl
    | 1 => exact (Cert.ReferenceIdeal.dot_S100000x128_S128x64_S100000x64_1_0_0_1_n_n.lhsIdx_val_of_single (cl := 1) rfl _ _).trans hk
  · refine congrArg w (funext fun a => Fin.ext ?_)
    match a with
    | 0 => exact (Cert.ReferenceIdeal.dot_S100000x128_S128x64_S100000x64_1_0_0_1_n_n.rhsIdx_val_of_single (cr := 0) rfl _ _).trans hk
    | 1 => unfold DotDims.rhsIdx; rw [dif_neg (by exact of_decide_eq_true rfl), dif_pos (by exact of_decide_eq_true rfl)]; rfl

theorem biasRows_apply (a5 : FVec Ideal Cert.ReferenceIdeal.S64 .f32) (n : Fin 100000) (h : Fin 64) :
    broadcastInDim Cert.ReferenceIdeal.S100000x64 ![0, 1] bcast_S1x64_S100000x64_0_1
        (broadcastInDim Cert.ReferenceIdeal.S1x64 ![1] bcast_S64_S1x64_1 a5) (ix2 n h) = a5 (ix1 h) := by
  rw [broadcastInDim_apply _ _ _ (ix2 n h) (ix2 (0 : Fin 1) h) (fun a => by
      match a with
      | 0 => rfl
      | 1 => rfl)]
  exact broadcastInDim_apply _ _ a5 (ix2 (0 : Fin 1) h) (ix1 h) (fun a => by
      match a with
      | 0 => rfl)

theorem ones_apply (j : Cert.ReferenceIdeal.S100000x64.Idx) :
    broadcastInDim Cert.ReferenceIdeal.S100000x64 ![] bcast_S_S100000x64
        (constant (F := Ideal) Cert.ReferenceIdeal.S_ .f32 0x3F800000#32) j = (1 : EReal) := by
  rw [broadcastInDim_scalar_apply, constant_apply, Ideal.ofBits_one_f32]

theorem refX_apply (a0 : FVec Ideal Cert.ReferenceIdeal.S100000x128 .f32) (a4 : FVec Ideal Cert.ReferenceIdeal.S64x128 .f32)
    (a5 : FVec Ideal Cert.ReferenceIdeal.S64 .f32) (n : Fin 100000) (h : Fin 64) :
    Host.divf
        (broadcastInDim Cert.ReferenceIdeal.S100000x64 ![] bcast_S_S100000x64
          (constant (F := Ideal) Cert.ReferenceIdeal.S_ .f32 0x3F800000#32))
        (addf
          (broadcastInDim Cert.ReferenceIdeal.S100000x64 ![] bcast_S_S100000x64
            (constant (F := Ideal) Cert.ReferenceIdeal.S_ .f32 0x3F800000#32))
          (Host.exp (Host.negf (addf
            (Host.dotGeneral (F := Ideal) Cert.ReferenceIdeal.dot_S100000x128_S128x64_S100000x64_1_0_0_1_n_n none a0
              (transpose Cert.ReferenceIdeal.S128x64 [1, 0] a4 transposes_S64x128_S128x64_1_0))
            (broadcastInDim Cert.ReferenceIdeal.S100000x64 ![0, 1] bcast_S1x64_S100000x64_0_1
              (broadcastInDim Cert.ReferenceIdeal.S1x64 ![1] bcast_S64_S1x64_1 a5))))))
        (ix2 n h)
      = Ideal.logistic ((∑ k : Fin 128, a0 (ix2 n k) * a4 (ix2 h k)) + a5 (ix1 h)) := by
  rw [hostDivf_apply, addf_apply, ones_apply]
  show Ideal.div 1 (1 + Ideal.exp (-(Host.dotGeneral (F := Ideal) Cert.ReferenceIdeal.dot_S100000x128_S128x64_S100000x64_1_0_0_1_n_n none a0
      (transpose Cert.ReferenceIdeal.S128x64 [1, 0] a4 transposes_S64x128_S128x64_1_0) (ix2 n h)
    + broadcastInDim Cert.ReferenceIdeal.S100000x64 ![0, 1] bcast_S1x64_S100000x64_0_1
        (broadcastInDim Cert.ReferenceIdeal.S1x64 ![1] bcast_S64_S1x64_1 a5) (ix2 n h)))) = _
  rw [dotXW_apply, biasRows_apply]
  have hT : ∀ k : Fin 128, transpose Cert.ReferenceIdeal.S128x64 [1, 0] a4 transposes_S64x128_S128x64_1_0 (ix2 k h)
      = a4 (ix2 h k) := fun k => transpose_ix2_apply a4 _ k h
  unfold Ideal.logistic
  simp only [hT]

theorem idcolRef_apply (a12 : IVec Cert.ReferenceIdeal.S100000 32) (n : Fin 100000) (u : Fin 1) :
    broadcastInDim Cert.ReferenceIdeal.S100000x1 ![0] bcast_S100000_S100000x1_0 a12 (ix2 n u) = a12 (ix1 n) :=
  broadcastInDim_apply _ _ a12 (ix2 n u) (ix1 n) (fun a => by
    match a with
    | 0 => rfl)

theorem nodeFirst_apply (y : FVec Ideal Cert.ReferenceIdeal.S16x8x100000 .f32) (n : Fin 100000) (g : Fin 16) (k : Fin 8) :
    transpose Cert.ReferenceIdeal.S100000x16x8 [2, 0, 1] y transposes_S16x8x100000_S100000x16x8_2_0_1 (ix3 n g k)
      = y (ix3 g k n) :=
  transpose_apply _ y _ _ _ fun c => match c with | 0 => rfl | 1 => rfl | 2 => rfl

theorem poolRef_apply (a12 : IVec Cert.ReferenceIdeal.S100000 32) (zx t : FVec Ideal Cert.ReferenceIdeal.S16x8x100000 .f32)
    (G : Fin 512) (g : Fin 16) (k : Fin 8) :
    Host.scatterAdd (F := Ideal) Cert.ReferenceIdeal.scatter_S512x16x8_S100000x1_S100000x16x8_12_0_0_1
        (broadcastInDim Cert.ReferenceIdeal.S512x16x8 ![] bcast_S_S512x16x8
          (constant (F := Ideal) Cert.ReferenceIdeal.S_ .f32 0x00000000#32))
        (broadcastInDim Cert.ReferenceIdeal.S100000x1 ![0] bcast_S100000_S100000x1_0 a12)
        (transpose Cert.ReferenceIdeal.S100000x16x8 [2, 0, 1] (mulf zx t) transposes_S16x8x100000_S100000x16x8_2_0_1)
        (ix3 G g k)
      = ∑ n : Fin 100000, if (a12 (ix1 n)).toInt = (G.val : ℤ) then zx (ix3 g k n) * t (ix3 g k n) else 0 := by
  unfold Host.scatterAdd
  rw [Ideal.hostScatterAdd_def,
    Cert.Hand.SegSum.hostScatterAdd_rows3_of Cert.ReferenceIdeal.scatter_S512x16x8_S100000x1_S100000x16x8_12_0_0_1 rfl rfl rfl rfl,
    broadcastInDim_scalar_apply, constant_apply, Ideal.ofBits_zero_f32, zero_add]
  refine Finset.sum_congr rfl fun n _ => ?_
  rw [idcolRef_apply, nodeFirst_apply, mulf_apply]

end ReferenceSide

end Cert.Hand.BridgeIdx

end
-- ==== Proof.Bridge.lean ====
import proofs.«420008_j32530082300305_1_alg».proof.Proof.BridgeIdx
import proofs.«420008_j32530082300305_1_alg».proof.Proof.KIHost
import proofs.«420008_j32530082300305_1_alg».proof.Proof.KIVal0
import proofs.«420008_j32530082300305_1_alg».proof.Proof.KIVal1
import proofs.«420008_j32530082300305_1_alg».proof.Proof.RefRun

noncomputable section

namespace Cert.Hand.Bridge

open Idealize.ShloMosaic Idealize.ShloMosaic.ValueIdx
open Cert.Hand.BridgeIdx
open Cert.KernelIdeal.Hand (X0 ZX0 X0_apply ZX0_apply Pool kFcwT kFcb kZmatT kGi2 kTail kHead kNorm kSpmm kZnext kA)
open Cert.ReferenceIdeal.Hand (refOut refHead refX refZX refPool)
open Cert.ReferenceIdeal.Facts₀

theorem x0_eq (a0 : Vec Ideal Cert.KernelIdeal.S100000x128 .f32) (a4 : Vec Ideal Cert.KernelIdeal.S64x128 .f32) (a5 : Vec Ideal Cert.KernelIdeal.S64 .f32) :
    X0 a0 (kFcwT a4) (kFcb a5) = refX a0 a4 a5 := by
  funext i
  obtain ⟨n, h, rfl⟩ : ∃ (n : Fin 100000) (h : Fin 64), i = ix2 n h := ⟨i 0, i 1, eq_ix2 i⟩
  refine (X0_apply _ _ _ n h).trans ?_
  refine Eq.trans ?_ (refX_apply a0 a4 a5 n h).symm
  have h1 : ∀ k : Fin 128, kFcwT a4 (ix2 k h) = a4 (ix2 h k) := fun k => wT_apply a4 k h
  have h2 : kFcb a5 (ix2 (0 : Fin 1) h) = a5 (ix1 h) := brow_apply a5 0 h
  rw [h2]
  simp only [h1]

theorem pool_eq (a12 : IVec Cert.KernelIdeal.S100000 32) (a3 z : Vec Ideal Cert.KernelIdeal.S16x8x64 .f32)
    (x0 xs : Vec Ideal Cert.KernelIdeal.S100000x64 .f32) :
    (fun i => shapeCast Cert.KernelIdeal.S512x16x8 (Pool xs (kZmatT z) (ZX0 x0 (kZmatT a3)) (kGi2 (F := Ideal) a12))
        Cert.KernelIdeal.Facts₀.shapeCasts_S512x128_S512x16x8 i)
      = refPool a12 (refZX a3 x0) (refZX z xs) := by
  funext j
  obtain ⟨G, g, k, rfl⟩ : ∃ (G : Fin 512) (g : Fin 16) (k : Fin 8), j = ix3 G g k := ⟨j 0, j 1, j 2, eq_ix3 j⟩
  refine (pool3_apply _ G g k).trans ?_
  refine Eq.trans ?_ (poolRef_apply a12 (refZX a3 x0) (refZX z xs) G g k).symm
  show (∑ n : Fin 100000, if (kGi2 (F := Ideal) a12 (ix2 n (0 : Fin 1))).toInt = (G.val : ℤ) then
      ZX0 x0 (kZmatT a3) (ix2 n (⟨8 * g.val + k.val, by omega⟩ : Fin 128))
        * ∑ h : Fin 64, xs (ix2 n h) * kZmatT z (ix2 h (⟨8 * g.val + k.val, by omega⟩ : Fin 128)) else 0) = _
  refine Finset.sum_congr rfl fun n _ => ?_
  have hg : kGi2 (F := Ideal) a12 (ix2 n (0 : Fin 1)) = a12 (ix1 n) := idcol_apply a12 n 0
  have e1 : ∀ h : Fin 64, kZmatT a3 (ix2 h (⟨8 * g.val + k.val, by omega⟩ : Fin 128)) = a3 (ix3 g k h) :=
    fun h => flatT_apply a3 h g k
  have e2 : ∀ h : Fin 64, kZmatT z (ix2 h (⟨8 * g.val + k.val, by omega⟩ : Fin 128)) = z (ix3 g k h) :=
    fun h => flatT_apply z h g k
  rw [hg]
  refine if_congr Iff.rfl ?_ rfl
  rw [ZX0_apply]
  simp only [e1, e2]
  unfold refZX
  rw [dotZX_apply, dotZX_apply]
  exact congrArg₂ (· * ·) (Finset.sum_congr rfl fun h _ => mul_comm _ _) (Finset.sum_congr rfl fun h _ => mul_comm _ _)

theorem poolX_eq (a0 : Vec Ideal Cert.KernelIdeal.S100000x128 .f32) (a4 : Vec Ideal Cert.KernelIdeal.S64x128 .f32) (a5 : Vec Ideal Cert.KernelIdeal.S64 .f32)
    (a12 : IVec Cert.KernelIdeal.S100000 32) (a3 z : Vec Ideal Cert.KernelIdeal.S16x8x64 .f32)
    (S : Vec Ideal Cert.KernelIdeal.S100000x64 .f32 → Vec Ideal Cert.KernelIdeal.S100000x64 .f32) :
    (fun i => shapeCast Cert.KernelIdeal.S512x16x8
        (Pool (S (X0 a0 (kFcwT a4) (kFcb a5))) (kZmatT z) (ZX0 (X0 a0 (kFcwT a4) (kFcb a5)) (kZmatT a3))
          (kGi2 (F := Ideal) a12))
        Cert.KernelIdeal.Facts₀.shapeCasts_S512x128_S512x16x8 i)
      = refPool a12 (refZX a3 (refX a0 a4 a5)) (refZX z (S (refX a0 a4 a5))) := by
  rw [x0_eq]
  exact pool_eq a12 a3 z _ _

theorem sh_head (P : Vec Ideal Cert.KernelIdeal.S512x128 .f32) (nrm : Vec Ideal Cert.KernelIdeal.S512x1 .f32) :
    kHead (F := Ideal) P nrm
      = refHead (F := Ideal) (fun i => shapeCast Cert.KernelIdeal.S512x16x8 P Cert.KernelIdeal.Facts₀.shapeCasts_S512x128_S512x16x8 i) nrm := rfl

abbrev kOut (a0 : Vec Ideal Cert.KernelIdeal.S100000x128 .f32) (a1 : Vec Ideal Cert.KernelIdeal.S1600000 .f32)
    (a2 : Vec Ideal Cert.KernelIdeal.S16x28 .f32) (a3 : Vec Ideal Cert.KernelIdeal.S16x8x64 .f32) (a4 : Vec Ideal Cert.KernelIdeal.S64x128 .f32)
    (a5 : Vec Ideal Cert.KernelIdeal.S64 .f32) (a6 a7 : Vec Ideal Cert.KernelIdeal.S48 .f32) (a8 : Vec Ideal Cert.KernelIdeal.S128x48 .f32)
    (a9 : Vec Ideal Cert.KernelIdeal.S128 .f32) (a10 : Vec Ideal Cert.KernelIdeal.S10x128 .f32) (a11 : Vec Ideal Cert.KernelIdeal.S10 .f32)
    (a12 : IVec Cert.KernelIdeal.S100000 32) (a13 a14 : IVec Cert.KernelIdeal.S1600000 32) : Vec Ideal Cert.KernelIdeal.S512x10 .f32 :=
  let x0 := X0 a0 (kFcwT a4) (kFcb a5)
  let zx := ZX0 x0 (kZmatT a3)
  let x1 := kSpmm a1 a13 a14 x0
  let x2 := kSpmm a1 a13 a14 x1
  let z1 := kZnext (kA a2) a3
  let z2 := kZnext (kA a2) z1
  let gi := kGi2 (F := Ideal) a12
  kTail (kHead (Pool x0 (kZmatT a3) zx gi) (kNorm a12)) (kHead (Pool x1 (kZmatT z1) zx gi) (kNorm a12))
    (kHead (Pool x2 (kZmatT z2) zx gi) (kNorm a12)) a6 a7 a8 a9 a10 a11

theorem value_eq (a0 : Vec Ideal Cert.KernelIdeal.S100000x128 .f32) (a1 : Vec Ideal Cert.KernelIdeal.S1600000 .f32)
    (a2 : Vec Ideal Cert.KernelIdeal.S16x28 .f32) (a3 : Vec Ideal Cert.KernelIdeal.S16x8x64 .f32) (a4 : Vec Ideal Cert.KernelIdeal.S64x128 .f32)
    (a5 : Vec Ideal Cert.KernelIdeal.S64 .f32) (a6 a7 : Vec Ideal Cert.KernelIdeal.S48 .f32) (a8 : Vec Ideal Cert.KernelIdeal.S128x48 .f32)
    (a9 : Vec Ideal Cert.KernelIdeal.S128 .f32) (a10 : Vec Ideal Cert.KernelIdeal.S10x128 .f32) (a11 : Vec Ideal Cert.KernelIdeal.S10 .f32)
    (a12 : IVec Cert.KernelIdeal.S100000 32) (a13 a14 : IVec Cert.KernelIdeal.S1600000 32) :
    kOut a0 a1 a2 a3 a4 a5 a6 a7 a8 a9 a10 a11 a12 a13 a14
      = refOut (F := Ideal) a0 a1 a2 a3 a4 a5 a6 a7 a8 a9 a10 a11 a12 a13 a14 := by
  have e0 := poolX_eq a0 a4 a5 a12 a3 a3 (fun x => x)
  have e1 := poolX_eq a0 a4 a5 a12 a3 (kZnext (kA a2) a3) (kSpmm a1 a13 a14)
  have e2 := poolX_eq a0 a4 a5 a12 a3 (kZnext (kA a2) (kZnext (kA a2) a3))
    (fun x => kSpmm a1 a13 a14 (kSpmm a1 a13 a14 x))
  unfold kOut refOut
  simp only [sh_head, e0, e1, e2]

end Cert.Hand.Bridge

end
-- ==== Proof.lean ====
import proofs.«420008_j32530082300305_1_alg».proof.Defs
import proofs.«420008_j32530082300305_1_alg».proof.Proof.Gen.Kernel
import proofs.«420008_j32530082300305_1_alg».proof.Proof.Gen.KernelIdeal
import proofs.«420008_j32530082300305_1_alg».proof.Proof.Gen.ReferenceIdeal
import proofs.«420008_j32530082300305_1_alg».proof.Proof.Gen.Pre_finite_inputs
import proofs.«420008_j32530082300305_1_alg».proof.Proof.KLaunch
import proofs.«420008_j32530082300305_1_alg».proof.Proof.KIRunRes
import proofs.«420008_j32530082300305_1_alg».proof.Proof.KIValue
import proofs.«420008_j32530082300305_1_alg».proof.Proof.RefRun
import proofs.«420008_j32530082300305_1_alg».proof.Proof.Bridge
import Idealize.ShloMosaic.Adequacy
import Idealize.ShloMosaic.Init

noncomputable section

namespace Cert.Proof

open Idealize.ShloMosaic Idealize.ShloMosaic.TcCoe Idealize.SL.Sem

theorem frame_k : Cert.frame_Kernel (hKernel := Cert.Kernel.Gen.facts) (hPre_finite_inputs := Cert.Pre_finite_inputs.Gen.facts) :=
  fun m ρ _ => Cert.Kernel.Hand.frame (F := Bits) m ρ

theorem frame_ki : Cert.frame_KernelIdeal (hKernelIdeal := Cert.KernelIdeal.Gen.facts) (hPre_finite_inputs := Cert.Pre_finite_inputs.Gen.facts) :=
  fun m ρ _ => Cert.KernelIdeal.Hand.frame (F := Ideal) m ρ

theorem frame_ri : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.ReferenceIdeal.Hand.run (F := Ideal) m ρ)

-- Both runs end at one function of the arguments: the kernel's value, read off its last contents, is the reference's.
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' _ hagree
  refine ⟨_, Cert.KernelIdeal.Hand.run_main (F := Ideal) m ρ, ?_⟩
  refine (θ_run Cert.ReferenceIdeal.defs _ _).mono (fun _ h c => ⟨(h c).1.trans ?_, (h c).2⟩)
    (Cert.ReferenceIdeal.Hand.run (F := Ideal) m' ρ')
  obtain ⟨e0, e1, e2, e3, e4, e5, e6, e7, e8, e9, e10, e11, e12, e13, e14⟩ := hagree c
  rw [e0, e1, e2, e3, e4, e5, e6, e7, e8, e9, e10, e11, e12, e13, e14]
  exact ((Cert.KernelIdeal.Hand.kernel_value m c).trans (Cert.Hand.Bridge.value_eq _ _ _ _ _ _ _ _ _ _ _ _ _ _ _)).symm

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
